-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x384x224x224 : Shape := ⟨4, ![4, 384, 224, 224]⟩
abbrev S_ : Shape := ⟨0, ![]⟩

class Facts : Prop where
  bcast_S_S4x384x224x224 : S_.BroadcastsInDim S4x384x224x224 (![] : Fin 0 → Fin S4x384x224x224.rank)
  reducesTo_S4x384x224x224_S_d0_1_2_3 : S4x384x224x224.ReducesTo [0, 1, 2, 3] S_
  h_S_ : 0 < S_.numel

variable [Facts]

def fn {F : FTy → Type} [FloatOps F] (main_arg0 : FVec F S4x384x224x224 .f32) : IVec S_ 1 :=
  let main_v0 : FVec F S4x384x224x224 .f32 := Host.absf main_arg0
  let main_cst : FVec F S_ .f32 := constant S_ .f32 0x7F800000#32
  let main_v1 : FVec F S4x384x224x224 .f32 := broadcastInDim S4x384x224x224 ![] bcast_S_S4x384x224x224 main_cst
  let main_v2 : IVec S4x384x224x224 1 := cmpf .olt main_v0 main_v1
  let main_c : IVec S_ 1 := constantI S_ 1 1#1
  let main_v3 : IVec S_ 1 := (fun x v => Host.reduce IntOp.andi x v reducesTo_S4x384x224x224_S_d0_1_2_3 h_S_) main_v2 main_c
  main_v3
-- ==== Kernel.lean ====
abbrev S4x384x224x224 : Shape := ⟨4, ![4, 384, 224, 224]⟩
abbrev S1536x224x224 : Shape := ⟨3, ![1536, 224, 224]⟩
abbrev S4x32x224 : Shape := ⟨3, ![4, 32, 224]⟩
abbrev S_ : Shape := ⟨0, ![]⟩
abbrev S1x1x16 : Shape := ⟨3, ![1, 1, 16]⟩
abbrev S16 : Shape := ⟨1, ![16]⟩

abbrev nBuf : Table → Nat
  | .hbm => 4
  | .local .scVector .vmem => 4
  | _ => 0

abbrev bufTy : (tb : Table) → Fin (nBuf tb) → BufTy
  | .hbm, ⟨0, _⟩ => ⟨S4x384x224x224, .f32⟩
  | .hbm, ⟨1, _⟩ => ⟨S1536x224x224, .f32⟩
  | .hbm, ⟨2, _⟩ => ⟨S1536x224x224, .f32⟩
  | .hbm, ⟨3, _⟩ => ⟨S4x384x224x224, .f32⟩
  | .local .scVector .vmem, ⟨0, _⟩ => ⟨S4x32x224, .f32⟩
  | .local .scVector .vmem, ⟨1, _⟩ => ⟨S4x32x224, .f32⟩
  | .local .scVector .vmem, ⟨2, _⟩ => ⟨S4x32x224, .f32⟩
  | .local .scVector .vmem, ⟨3, _⟩ => ⟨S4x32x224, .f32⟩
  | _, _ => ⟨S4x384x224x224, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v0_scv : Ref sig .scVector := ⟨.hbm, 1, rfl⟩
abbrev main_v1_scv : Ref sig .scVector := ⟨.hbm, 2, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c48_i32 : BitVec 32 := 48#32
  let v2 : BitVec 32 := Scalar.muli v1 c48_i32
  let c0_i32_0 : BitVec 32 := 0#32
  let v4 : BitVec 32 := Scalar.addi v2 c0_i32_0
  let c7_i32 : BitVec 32 := 7#32
  let v3 : BitVec 32 := Scalar.remsi c0_i32 c7_i32
  let c32_i32 : BitVec 32 := 32#32
  let v5 : BitVec 32 := Scalar.muli v3 c32_i32
  let c0_i32_1 : BitVec 32 := 0#32
  ![v4.toNat, v5.toNat, 0]
@[reducible] def k0_t1_loop : Scf.Loop 32 :=
  let c0_i32_9 : BitVec 32 := 0#32
  let c42_i32 : BitVec 32 := 42#32
  let v13 : BitVec 32 := Scalar.addi c0_i32_9 c42_i32
  let c1_i32_10 : BitVec 32 := 1#32
  ⟨c0_i32_9, v13, c1_i32_10⟩
@[reducible] def k0_t2_loop : Scf.Loop 32 :=
  let c0_i32_35 : BitVec 32 := 0#32
  let c32_i32_36 : BitVec 32 := 32#32
  let v25 : BitVec 32 := Scalar.addi c0_i32_35 c32_i32_36
  let c1_i32_37 : BitVec 32 := 1#32
  ⟨c0_i32_35, v25, c1_i32_37⟩
def k0_off2 (k0_t2 : Fin k0_t2_loop.trips) : Fin 3 → Nat :=
  let c0_i32_81 : BitVec 32 := 0#32
  let v87 : Index := Scalar.indexCast c0_i32_81
  let c0_i32_35 : BitVec 32 := 0#32
  let c1_i32_37 : BitVec 32 := 1#32
  let arg13 : BitVec 32 := Scf.iv c0_i32_35 c1_i32_37 k0_t2
  let v88 : Index := Scalar.indexCast arg13
  let c0 : Index := 0#32
  ![0, v88.toNat, 0]
def k0_off3 (k0_t2 : Fin k0_t2_loop.trips) : Fin 3 → Nat :=
  let c1_i32_82 : BitVec 32 := 1#32
  let v91 : Index := Scalar.indexCast c1_i32_82
  let c0_i32_35 : BitVec 32 := 0#32
  let c1_i32_37 : BitVec 32 := 1#32
  let arg13 : BitVec 32 := Scf.iv c0_i32_35 c1_i32_37 k0_t2
  let v92 : Index := Scalar.indexCast arg13
  let c0_83 : Index := 0#32
  ![1, v92.toNat, 0]
def k0_off4 (k0_t2 : Fin k0_t2_loop.trips) : Fin 3 → Nat :=
  let c2_i32_84 : BitVec 32 := 2#32
  let v95 : Index := Scalar.indexCast c2_i32_84
  let c0_i32_35 : BitVec 32 := 0#32
  let c1_i32_37 : BitVec 32 := 1#32
  let arg13 : BitVec 32 := Scf.iv c0_i32_35 c1_i32_37 k0_t2
  let v96 : Index := Scalar.indexCast arg13
  let c0_85 : Index := 0#32
  ![2, v96.toNat, 0]
def k0_off5 (k0_t2 : Fin k0_t2_loop.trips) : Fin 3 → Nat :=
  let c3_i32 : BitVec 32 := 3#32
  let v99 : Index := Scalar.indexCast c3_i32
  let c0_i32_35 : BitVec 32 := 0#32
  let c1_i32_37 : BitVec 32 := 1#32
  let arg13 : BitVec 32 := Scf.iv c0_i32_35 c1_i32_37 k0_t2
  let v100 : Index := Scalar.indexCast arg13
  let c0_86 : Index := 0#32
  ![3, v100.toNat, 0]
def k0_off6 (k0_t2 : Fin k0_t2_loop.trips) : Fin 3 → Nat :=
  let c0_i32_95 : BitVec 32 := 0#32
  let v135 : Index := Scalar.indexCast c0_i32_95
  let c0_i32_35 : BitVec 32 := 0#32
  let c1_i32_37 : BitVec 32 := 1#32
  let arg13 : BitVec 32 := Scf.iv c0_i32_35 c1_i32_37 k0_t2
  let v136 : Index := Scalar.indexCast arg13
  let c16 : Index := 16#32
  ![0, v136.toNat, 16]
def k0_off7 (k0_t2 : Fin k0_t2_loop.trips) : Fin 3 → Nat :=
  let c1_i32_96 : BitVec 32 := 1#32
  let v139 : Index := Scalar.indexCast c1_i32_96
  let c0_i32_35 : BitVec 32 := 0#32
  let c1_i32_37 : BitVec 32 := 1#32
  let arg13 : BitVec 32 := Scf.iv c0_i32_35 c1_i32_37 k0_t2
  let v140 : Index := Scalar.indexCast arg13
  let c16_97 : Index := 16#32
  ![1, v140.toNat, 16]
def k0_off8 (k0_t2 : Fin k0_t2_loop.trips) : Fin 3 → Nat :=
  let c2_i32_98 : BitVec 32 := 2#32
  let v143 : Index := Scalar.indexCast c2_i32_98
  let c0_i32_35 : BitVec 32 := 0#32
  let c1_i32_37 : BitVec 32 := 1#32
  let arg13 : BitVec 32 := Scf.iv c0_i32_35 c1_i32_37 k0_t2
  let v144 : Index := Scalar.indexCast arg13
  let c16_99 : Index := 16#32
  ![2, v144.toNat, 16]
def k0_off9 (k0_t2 : Fin k0_t2_loop.trips) : Fin 3 → Nat :=
  let c3_i32_100 : BitVec 32 := 3#32
  let v147 : Index := Scalar.indexCast c3_i32_100
  let c0_i32_35 : BitVec 32 := 0#32
  let c1_i32_37 : BitVec 32 := 1#32
  let arg13 : BitVec 32 := Scf.iv c0_i32_35 c1_i32_37 k0_t2
  let v148 : Index := Scalar.indexCast arg13
  let c16_101 : Index := 16#32
  ![3, v148.toNat, 16]
def k0_off10 (k0_t2 : Fin k0_t2_loop.trips) : Fin 3 → Nat :=
  let c0_i32_111 : BitVec 32 := 0#32
  let v183 : Index := Scalar.indexCast c0_i32_111
  let c0_i32_35 : BitVec 32 := 0#32
  let c1_i32_37 : BitVec 32 := 1#32
  let arg13 : BitVec 32 := Scf.iv c0_i32_35 c1_i32_37 k0_t2
  let v184 : Index := Scalar.indexCast arg13
  let c32 : Index := 32#32
  ![0, v184.toNat, 32]
def k0_off11 (k0_t2 : Fin k0_t2_loop.trips) : Fin 3 → Nat :=
  let c1_i32_112 : BitVec 32 := 1#32
  let v187 : Index := Scalar.indexCast c1_i32_112
  let c0_i32_35 : BitVec 32 := 0#32
  let c1_i32_37 : BitVec 32 := 1#32
  let arg13 : BitVec 32 := Scf.iv c0_i32_35 c1_i32_37 k0_t2
  let v188 : Index := Scalar.indexCast arg13
  let c32_113 : Index := 32#32
  ![1, v188.toNat, 32]
def k0_off12 (k0_t2 : Fin k0_t2_loop.trips) : Fin 3 → Nat :=
  let c2_i32_114 : BitVec 32 := 2#32
  let v191 : Index := Scalar.indexCast c2_i32_114
  let c0_i32_35 : BitVec 32 := 0#32
  let c1_i32_37 : BitVec 32 := 1#32
  let arg13 : BitVec 32 := Scf.iv c0_i32_35 c1_i32_37 k0_t2
  let v192 : Index := Scalar.indexCast arg13
  let c32_115 : Index := 32#32
  ![2, v192.toNat, 32]
def k0_off13 (k0_t2 : Fin k0_t2_loop.trips) : Fin 3 → Nat :=
  let c3_i32_116 : BitVec 32 := 3#32
  let v195 : Index := Scalar.indexCast c3_i32_116
  let c0_i32_35 : BitVec 32 := 0#32
  let c1_i32_37 : BitVec 32 := 1#32
  let arg13 : BitVec 32 := Scf.iv c0_i32_35 c1_i32_37 k0_t2
  let v196 : Index := Scalar.indexCast arg13
  let c32_117 : Index := 32#32
  ![3, v196.toNat, 32]
def k0_off14 (k0_t2 : Fin k0_t2_loop.trips) : Fin 3 → Nat :=
  let c0_i32_127 : BitVec 32 := 0#32
  let v231 : Index := Scalar.indexCast c0_i32_127
  let c0_i32_35 : BitVec 32 := 0#32
  let c1_i32_37 : BitVec 32 := 1#32
  let arg13 : BitVec 32 := Scf.iv c0_i32_35 c1_i32_37 k0_t2
  let v232 : Index := Scalar.indexCast arg13
  let c48 : Index := 48#32
  ![0, v232.toNat, 48]
def k0_off15 (k0_t2 : Fin k0_t2_loop.trips) : Fin 3 → Nat :=
  let c1_i32_128 : BitVec 32 := 1#32
  let v235 : Index := Scalar.indexCast c1_i32_128
  let c0_i32_35 : BitVec 32 := 0#32
  let c1_i32_37 : BitVec 32 := 1#32
  let arg13 : BitVec 32 := Scf.iv c0_i32_35 c1_i32_37 k0_t2
  let v236 : Index := Scalar.indexCast arg13
  let c48_129 : Index := 48#32
  ![1, v236.toNat, 48]
def k0_off16 (k0_t2 : Fin k0_t2_loop.trips) : Fin 3 → Nat :=
  let c2_i32_130 : BitVec 32 := 2#32
  let v239 : Index := Scalar.indexCast c2_i32_130
  let c0_i32_35 : BitVec 32 := 0#32
  let c1_i32_37 : BitVec 32 := 1#32
  let arg13 : BitVec 32 := Scf.iv c0_i32_35 c1_i32_37 k0_t2
  let v240 : Index := Scalar.indexCast arg13
  let c48_131 : Index := 48#32
  ![2, v240.toNat, 48]
def k0_off17 (k0_t2 : Fin k0_t2_loop.trips) : Fin 3 → Nat :=
  let c3_i32_132 : BitVec 32 := 3#32
  let v243 : Index := Scalar.indexCast c3_i32_132
  let c0_i32_35 : BitVec 32 := 0#32
  let c1_i32_37 : BitVec 32 := 1#32
  let arg13 : BitVec 32 := Scf.iv c0_i32_35 c1_i32_37 k0_t2
  let v244 : Index := Scalar.indexCast arg13
  let c48_133 : Index := 48#32
  ![3, v244.toNat, 48]
def k0_off18 (k0_t2 : Fin k0_t2_loop.trips) : Fin 3 → Nat :=
  let c0_i32_143 : BitVec 32 := 0#32
  let v279 : Index := Scalar.indexCast c0_i32_143
  let c0_i32_35 : BitVec 32 := 0#32
  let c1_i32_37 : BitVec 32 := 1#32
  let arg13 : BitVec 32 := Scf.iv c0_i32_35 c1_i32_37 k0_t2
  let v280 : Index := Scalar.indexCast arg13
  let c64 : Index := 64#32
  ![0, v280.toNat, 64]
def k0_off19 (k0_t2 : Fin k0_t2_loop.trips) : Fin 3 → Nat :=
  let c1_i32_144 : BitVec 32 := 1#32
  let v283 : Index := Scalar.indexCast c1_i32_144
  let c0_i32_35 : BitVec 32 := 0#32
  let c1_i32_37 : BitVec 32 := 1#32
  let arg13 : BitVec 32 := Scf.iv c0_i32_35 c1_i32_37 k0_t2
  let v284 : Index := Scalar.indexCast arg13
  let c64_145 : Index := 64#32
  ![1, v284.toNat, 64]
def k0_off20 (k0_t2 : Fin k0_t2_loop.trips) : Fin 3 → Nat :=
  let c2_i32_146 : BitVec 32 := 2#32
  let v287 : Index := Scalar.indexCast c2_i32_146
  let c0_i32_35 : BitVec 32 := 0#32
  let c1_i32_37 : BitVec 32 := 1#32
  let arg13 : BitVec 32 := Scf.iv c0_i32_35 c1_i32_37 k0_t2
  let v288 : Index := Scalar.indexCast arg13
  let c64_147 : Index := 64#32
  ![2, v288.toNat, 64]
def k0_off21 (k0_t2 : Fin k0_t2_loop.trips) : Fin 3 → Nat :=
  let c3_i32_148 : BitVec 32 := 3#32
  let v291 : Index := Scalar.indexCast c3_i32_148
  let c0_i32_35 : BitVec 32 := 0#32
  let c1_i32_37 : BitVec 32 := 1#32
  let arg13 : BitVec 32 := Scf.iv c0_i32_35 c1_i32_37 k0_t2
  let v292 : Index := Scalar.indexCast arg13
  let c64_149 : Index := 64#32
  ![3, v292.toNat, 64]
def k0_off22 (k0_t2 : Fin k0_t2_loop.trips) : Fin 3 → Nat :=
  let c0_i32_159 : BitVec 32 := 0#32
  let v327 : Index := Scalar.indexCast c0_i32_159
  let c0_i32_35 : BitVec 32 := 0#32
  let c1_i32_37 : BitVec 32 := 1#32
  let arg13 : BitVec 32 := Scf.iv c0_i32_35 c1_i32_37 k0_t2
  let v328 : Index := Scalar.indexCast arg13
  let c80 : Index := 80#32
  ![0, v328.toNat, 80]
def k0_off23 (k0_t2 : Fin k0_t2_loop.trips) : Fin 3 → Nat :=
  let c1_i32_160 : BitVec 32 := 1#32
  let v331 : Index := Scalar.indexCast c1_i32_160
  let c0_i32_35 : BitVec 32 := 0#32
  let c1_i32_37 : BitVec 32 := 1#32
  let arg13 : BitVec 32 := Scf.iv c0_i32_35 c1_i32_37 k0_t2
  let v332 : Index := Scalar.indexCast arg13
  let c80_161 : Index := 80#32
  ![1, v332.toNat, 80]
def k0_off24 (k0_t2 : Fin k0_t2_loop.trips) : Fin 3 → Nat :=
  let c2_i32_162 : BitVec 32 := 2#32
  let v335 : Index := Scalar.indexCast c2_i32_162
  let c0_i32_35 : BitVec 32 := 0#32
  let c1_i32_37 : BitVec 32 := 1#32
  let arg13 : BitVec 32 := Scf.iv c0_i32_35 c1_i32_37 k0_t2
  let v336 : Index := Scalar.indexCast arg13
  let c80_163 : Index := 80#32
  ![2, v336.toNat, 80]
def k0_off25 (k0_t2 : Fin k0_t2_loop.trips) : Fin 3 → Nat :=
  let c3_i32_164 : BitVec 32 := 3#32
  let v339 : Index := Scalar.indexCast c3_i32_164
  let c0_i32_35 : BitVec 32 := 0#32
  let c1_i32_37 : BitVec 32 := 1#32
  let arg13 : BitVec 32 := Scf.iv c0_i32_35 c1_i32_37 k0_t2
  let v340 : Index := Scalar.indexCast arg13
  let c80_165 : Index := 80#32
  ![3, v340.toNat, 80]
def k0_off26 (k0_t2 : Fin k0_t2_loop.trips) : Fin 3 → Nat :=
  let c0_i32_175 : BitVec 32 := 0#32
  let v375 : Index := Scalar.indexCast c0_i32_175
  let c0_i32_35 : BitVec 32 := 0#32
  let c1_i32_37 : BitVec 32 := 1#32
  let arg13 : BitVec 32 := Scf.iv c0_i32_35 c1_i32_37 k0_t2
  let v376 : Index := Scalar.indexCast arg13
  let c96 : Index := 96#32
  ![0, v376.toNat, 96]
def k0_off27 (k0_t2 : Fin k0_t2_loop.trips) : Fin 3 → Nat :=
  let c1_i32_176 : BitVec 32 := 1#32
  let v379 : Index := Scalar.indexCast c1_i32_176
  let c0_i32_35 : BitVec 32 := 0#32
  let c1_i32_37 : BitVec 32 := 1#32
  let arg13 : BitVec 32 := Scf.iv c0_i32_35 c1_i32_37 k0_t2
  let v380 : Index := Scalar.indexCast arg13
  let c96_177 : Index := 96#32
  ![1, v380.toNat, 96]
def k0_off28 (k0_t2 : Fin k0_t2_loop.trips) : Fin 3 → Nat :=
  let c2_i32_178 : BitVec 32 := 2#32
  let v383 : Index := Scalar.indexCast c2_i32_178
  let c0_i32_35 : BitVec 32 := 0#32
  let c1_i32_37 : BitVec 32 := 1#32
  let arg13 : BitVec 32 := Scf.iv c0_i32_35 c1_i32_37 k0_t2
  let v384 : Index := Scalar.indexCast arg13
  let c96_179 : Index := 96#32
  ![2, v384.toNat, 96]
def k0_off29 (k0_t2 : Fin k0_t2_loop.trips) : Fin 3 → Nat :=
  let c3_i32_180 : BitVec 32 := 3#32
  let v387 : Index := Scalar.indexCast c3_i32_180
  let c0_i32_35 : BitVec 32 := 0#32
  let c1_i32_37 : BitVec 32 := 1#32
  let arg13 : BitVec 32 := Scf.iv c0_i32_35 c1_i32_37 k0_t2
  let v388 : Index := Scalar.indexCast arg13
  let c96_181 : Index := 96#32
  ![3, v388.toNat, 96]
def k0_off30 (k0_t2 : Fin k0_t2_loop.trips) : Fin 3 → Nat :=
  let c0_i32_191 : BitVec 32 := 0#32
  let v423 : Index := Scalar.indexCast c0_i32_191
  let c0_i32_35 : BitVec 32 := 0#32
  let c1_i32_37 : BitVec 32 := 1#32
  let arg13 : BitVec 32 := Scf.iv c0_i32_35 c1_i32_37 k0_t2
  let v424 : Index := Scalar.indexCast arg13
  let c112 : Index := 112#32
  ![0, v424.toNat, 112]
def k0_off31 (k0_t2 : Fin k0_t2_loop.trips) : Fin 3 → Nat :=
  let c1_i32_192 : BitVec 32 := 1#32
  let v427 : Index := Scalar.indexCast c1_i32_192
  let c0_i32_35 : BitVec 32 := 0#32
  let c1_i32_37 : BitVec 32 := 1#32
  let arg13 : BitVec 32 := Scf.iv c0_i32_35 c1_i32_37 k0_t2
  let v428 : Index := Scalar.indexCast arg13
  let c112_193 : Index := 112#32
  ![1, v428.toNat, 112]
def k0_off32 (k0_t2 : Fin k0_t2_loop.trips) : Fin 3 → Nat :=
  let c2_i32_194 : BitVec 32 := 2#32
  let v431 : Index := Scalar.indexCast c2_i32_194
  let c0_i32_35 : BitVec 32 := 0#32
  let c1_i32_37 : BitVec 32 := 1#32
  let arg13 : BitVec 32 := Scf.iv c0_i32_35 c1_i32_37 k0_t2
  let v432 : Index := Scalar.indexCast arg13
  let c112_195 : Index := 112#32
  ![2, v432.toNat, 112]
def k0_off33 (k0_t2 : Fin k0_t2_loop.trips) : Fin 3 → Nat :=
  let c3_i32_196 : BitVec 32 := 3#32
  let v435 : Index := Scalar.indexCast c3_i32_196
  let c0_i32_35 : BitVec 32 := 0#32
  let c1_i32_37 : BitVec 32 := 1#32
  let arg13 : BitVec 32 := Scf.iv c0_i32_35 c1_i32_37 k0_t2
  let v436 : Index := Scalar.indexCast arg13
  let c112_197 : Index := 112#32
  ![3, v436.toNat, 112]
def k0_off34 (k0_t2 : Fin k0_t2_loop.trips) : Fin 3 → Nat :=
  let c0_i32_207 : BitVec 32 := 0#32
  let v471 : Index := Scalar.indexCast c0_i32_207
  let c0_i32_35 : BitVec 32 := 0#32
  let c1_i32_37 : BitVec 32 := 1#32
  let arg13 : BitVec 32 := Scf.iv c0_i32_35 c1_i32_37 k0_t2
  let v472 : Index := Scalar.indexCast arg13
  let c128 : Index := 128#32
  ![0, v472.toNat, 128]
def k0_off35 (k0_t2 : Fin k0_t2_loop.trips) : Fin 3 → Nat :=
  let c1_i32_208 : BitVec 32 := 1#32
  let v475 : Index := Scalar.indexCast c1_i32_208
  let c0_i32_35 : BitVec 32 := 0#32
  let c1_i32_37 : BitVec 32 := 1#32
  let arg13 : BitVec 32 := Scf.iv c0_i32_35 c1_i32_37 k0_t2
  let v476 : Index := Scalar.indexCast arg13
  let c128_209 : Index := 128#32
  ![1, v476.toNat, 128]
def k0_off36 (k0_t2 : Fin k0_t2_loop.trips) : Fin 3 → Nat :=
  let c2_i32_210 : BitVec 32 := 2#32
  let v479 : Index := Scalar.indexCast c2_i32_210
  let c0_i32_35 : BitVec 32 := 0#32
  let c1_i32_37 : BitVec 32 := 1#32
  let arg13 : BitVec 32 := Scf.iv c0_i32_35 c1_i32_37 k0_t2
  let v480 : Index := Scalar.indexCast arg13
  let c128_211 : Index := 128#32
  ![2, v480.toNat, 128]
def k0_off37 (k0_t2 : Fin k0_t2_loop.trips) : Fin 3 → Nat :=
  let c3_i32_212 : BitVec 32 := 3#32
  let v483 : Index := Scalar.indexCast c3_i32_212
  let c0_i32_35 : BitVec 32 := 0#32
  let c1_i32_37 : BitVec 32 := 1#32
  let arg13 : BitVec 32 := Scf.iv c0_i32_35 c1_i32_37 k0_t2
  let v484 : Index := Scalar.indexCast arg13
  let c128_213 : Index := 128#32
  ![3, v484.toNat, 128]
def k0_off38 (k0_t2 : Fin k0_t2_loop.trips) : Fin 3 → Nat :=
  let c0_i32_223 : BitVec 32 := 0#32
  let v519 : Index := Scalar.indexCast c0_i32_223
  let c0_i32_35 : BitVec 32 := 0#32
  let c1_i32_37 : BitVec 32 := 1#32
  let arg13 : BitVec 32 := Scf.iv c0_i32_35 c1_i32_37 k0_t2
  let v520 : Index := Scalar.indexCast arg13
  let c144 : Index := 144#32
  ![0, v520.toNat, 144]
def k0_off39 (k0_t2 : Fin k0_t2_loop.trips) : Fin 3 → Nat :=
  let c1_i32_224 : BitVec 32 := 1#32
  let v523 : Index := Scalar.indexCast c1_i32_224
  let c0_i32_35 : BitVec 32 := 0#32
  let c1_i32_37 : BitVec 32 := 1#32
  let arg13 : BitVec 32 := Scf.iv c0_i32_35 c1_i32_37 k0_t2
  let v524 : Index := Scalar.indexCast arg13
  let c144_225 : Index := 144#32
  ![1, v524.toNat, 144]
def k0_off40 (k0_t2 : Fin k0_t2_loop.trips) : Fin 3 → Nat :=
  let c2_i32_226 : BitVec 32 := 2#32
  let v527 : Index := Scalar.indexCast c2_i32_226
  let c0_i32_35 : BitVec 32 := 0#32
  let c1_i32_37 : BitVec 32 := 1#32
  let arg13 : BitVec 32 := Scf.iv c0_i32_35 c1_i32_37 k0_t2
  let v528 : Index := Scalar.indexCast arg13
  let c144_227 : Index := 144#32
  ![2, v528.toNat, 144]
def k0_off41 (k0_t2 : Fin k0_t2_loop.trips) : Fin 3 → Nat :=
  let c3_i32_228 : BitVec 32 := 3#32
  let v531 : Index := Scalar.indexCast c3_i32_228
  let c0_i32_35 : BitVec 32 := 0#32
  let c1_i32_37 : BitVec 32 := 1#32
  let arg13 : BitVec 32 := Scf.iv c0_i32_35 c1_i32_37 k0_t2
  let v532 : Index := Scalar.indexCast arg13
  let c144_229 : Index := 144#32
  ![3, v532.toNat, 144]
def k0_off42 (k0_t2 : Fin k0_t2_loop.trips) : Fin 3 → Nat :=
  let c0_i32_239 : BitVec 32 := 0#32
  let v567 : Index := Scalar.indexCast c0_i32_239
  let c0_i32_35 : BitVec 32 := 0#32
  let c1_i32_37 : BitVec 32 := 1#32
  let arg13 : BitVec 32 := Scf.iv c0_i32_35 c1_i32_37 k0_t2
  let v568 : Index := Scalar.indexCast arg13
  let c160 : Index := 160#32
  ![0, v568.toNat, 160]
def k0_off43 (k0_t2 : Fin k0_t2_loop.trips) : Fin 3 → Nat :=
  let c1_i32_240 : BitVec 32 := 1#32
  let v571 : Index := Scalar.indexCast c1_i32_240
  let c0_i32_35 : BitVec 32 := 0#32
  let c1_i32_37 : BitVec 32 := 1#32
  let arg13 : BitVec 32 := Scf.iv c0_i32_35 c1_i32_37 k0_t2
  let v572 : Index := Scalar.indexCast arg13
  let c160_241 : Index := 160#32
  ![1, v572.toNat, 160]
def k0_off44 (k0_t2 : Fin k0_t2_loop.trips) : Fin 3 → Nat :=
  let c2_i32_242 : BitVec 32 := 2#32
  let v575 : Index := Scalar.indexCast c2_i32_242
  let c0_i32_35 : BitVec 32 := 0#32
  let c1_i32_37 : BitVec 32 := 1#32
  let arg13 : BitVec 32 := Scf.iv c0_i32_35 c1_i32_37 k0_t2
  let v576 : Index := Scalar.indexCast arg13
  let c160_243 : Index := 160#32
  ![2, v576.toNat, 160]
def k0_off45 (k0_t2 : Fin k0_t2_loop.trips) : Fin 3 → Nat :=
  let c3_i32_244 : BitVec 32 := 3#32
  let v579 : Index := Scalar.indexCast c3_i32_244
  let c0_i32_35 : BitVec 32 := 0#32
  let c1_i32_37 : BitVec 32 := 1#32
  let arg13 : BitVec 32 := Scf.iv c0_i32_35 c1_i32_37 k0_t2
  let v580 : Index := Scalar.indexCast arg13
  let c160_245 : Index := 160#32
  ![3, v580.toNat, 160]
def k0_off46 (k0_t2 : Fin k0_t2_loop.trips) : Fin 3 → Nat :=
  let c0_i32_255 : BitVec 32 := 0#32
  let v615 : Index := Scalar.indexCast c0_i32_255
  let c0_i32_35 : BitVec 32 := 0#32
  let c1_i32_37 : BitVec 32 := 1#32
  let arg13 : BitVec 32 := Scf.iv c0_i32_35 c1_i32_37 k0_t2
  let v616 : Index := Scalar.indexCast arg13
  let c176 : Index := 176#32
  ![0, v616.toNat, 176]
def k0_off47 (k0_t2 : Fin k0_t2_loop.trips) : Fin 3 → Nat :=
  let c1_i32_256 : BitVec 32 := 1#32
  let v619 : Index := Scalar.indexCast c1_i32_256
  let c0_i32_35 : BitVec 32 := 0#32
  let c1_i32_37 : BitVec 32 := 1#32
  let arg13 : BitVec 32 := Scf.iv c0_i32_35 c1_i32_37 k0_t2
  let v620 : Index := Scalar.indexCast arg13
  let c176_257 : Index := 176#32
  ![1, v620.toNat, 176]
def k0_off48 (k0_t2 : Fin k0_t2_loop.trips) : Fin 3 → Nat :=
  let c2_i32_258 : BitVec 32 := 2#32
  let v623 : Index := Scalar.indexCast c2_i32_258
  let c0_i32_35 : BitVec 32 := 0#32
  let c1_i32_37 : BitVec 32 := 1#32
  let arg13 : BitVec 32 := Scf.iv c0_i32_35 c1_i32_37 k0_t2
  let v624 : Index := Scalar.indexCast arg13
  let c176_259 : Index := 176#32
  ![2, v624.toNat, 176]
def k0_off49 (k0_t2 : Fin k0_t2_loop.trips) : Fin 3 → Nat :=
  let c3_i32_260 : BitVec 32 := 3#32
  let v627 : Index := Scalar.indexCast c3_i32_260
  let c0_i32_35 : BitVec 32 := 0#32
  let c1_i32_37 : BitVec 32 := 1#32
  let arg13 : BitVec 32 := Scf.iv c0_i32_35 c1_i32_37 k0_t2
  let v628 : Index := Scalar.indexCast arg13
  let c176_261 : Index := 176#32
  ![3, v628.toNat, 176]
def k0_off50 (k0_t2 : Fin k0_t2_loop.trips) : Fin 3 → Nat :=
  let c0_i32_271 : BitVec 32 := 0#32
  let v663 : Index := Scalar.indexCast c0_i32_271
  let c0_i32_35 : BitVec 32 := 0#32
  let c1_i32_37 : BitVec 32 := 1#32
  let arg13 : BitVec 32 := Scf.iv c0_i32_35 c1_i32_37 k0_t2
  let v664 : Index := Scalar.indexCast arg13
  let c192 : Index := 192#32
  ![0, v664.toNat, 192]
def k0_off51 (k0_t2 : Fin k0_t2_loop.trips) : Fin 3 → Nat :=
  let c1_i32_272 : BitVec 32 := 1#32
  let v667 : Index := Scalar.indexCast c1_i32_272
  let c0_i32_35 : BitVec 32 := 0#32
  let c1_i32_37 : BitVec 32 := 1#32
  let arg13 : BitVec 32 := Scf.iv c0_i32_35 c1_i32_37 k0_t2
  let v668 : Index := Scalar.indexCast arg13
  let c192_273 : Index := 192#32
  ![1, v668.toNat, 192]
def k0_off52 (k0_t2 : Fin k0_t2_loop.trips) : Fin 3 → Nat :=
  let c2_i32_274 : BitVec 32 := 2#32
  let v671 : Index := Scalar.indexCast c2_i32_274
  let c0_i32_35 : BitVec 32 := 0#32
  let c1_i32_37 : BitVec 32 := 1#32
  let arg13 : BitVec 32 := Scf.iv c0_i32_35 c1_i32_37 k0_t2
  let v672 : Index := Scalar.indexCast arg13
  let c192_275 : Index := 192#32
  ![2, v672.toNat, 192]
def k0_off53 (k0_t2 : Fin k0_t2_loop.trips) : Fin 3 → Nat :=
  let c3_i32_276 : BitVec 32 := 3#32
  let v675 : Index := Scalar.indexCast c3_i32_276
  let c0_i32_35 : BitVec 32 := 0#32
  let c1_i32_37 : BitVec 32 := 1#32
  let arg13 : BitVec 32 := Scf.iv c0_i32_35 c1_i32_37 k0_t2
  let v676 : Index := Scalar.indexCast arg13
  let c192_277 : Index := 192#32
  ![3, v676.toNat, 192]
def k0_off54 (k0_t2 : Fin k0_t2_loop.trips) : Fin 3 → Nat :=
  let c0_i32_287 : BitVec 32 := 0#32
  let v711 : Index := Scalar.indexCast c0_i32_287
  let c0_i32_35 : BitVec 32 := 0#32
  let c1_i32_37 : BitVec 32 := 1#32
  let arg13 : BitVec 32 := Scf.iv c0_i32_35 c1_i32_37 k0_t2
  let v712 : Index := Scalar.indexCast arg13
  let c208 : Index := 208#32
  ![0, v712.toNat, 208]
def k0_off55 (k0_t2 : Fin k0_t2_loop.trips) : Fin 3 → Nat :=
  let c1_i32_288 : BitVec 32 := 1#32
  let v715 : Index := Scalar.indexCast c1_i32_288
  let c0_i32_35 : BitVec 32 := 0#32
  let c1_i32_37 : BitVec 32 := 1#32
  let arg13 : BitVec 32 := Scf.iv c0_i32_35 c1_i32_37 k0_t2
  let v716 : Index := Scalar.indexCast arg13
  let c208_289 : Index := 208#32
  ![1, v716.toNat, 208]
def k0_off56 (k0_t2 : Fin k0_t2_loop.trips) : Fin 3 → Nat :=
  let c2_i32_290 : BitVec 32 := 2#32
  let v719 : Index := Scalar.indexCast c2_i32_290
  let c0_i32_35 : BitVec 32 := 0#32
  let c1_i32_37 : BitVec 32 := 1#32
  let arg13 : BitVec 32 := Scf.iv c0_i32_35 c1_i32_37 k0_t2
  let v720 : Index := Scalar.indexCast arg13
  let c208_291 : Index := 208#32
  ![2, v720.toNat, 208]
def k0_off57 (k0_t2 : Fin k0_t2_loop.trips) : Fin 3 → Nat :=
  let c3_i32_292 : BitVec 32 := 3#32
  let v723 : Index := Scalar.indexCast c3_i32_292
  let c0_i32_35 : BitVec 32 := 0#32
  let c1_i32_37 : BitVec 32 := 1#32
  let arg13 : BitVec 32 := Scf.iv c0_i32_35 c1_i32_37 k0_t2
  let v724 : Index := Scalar.indexCast arg13
  let c208_293 : Index := 208#32
  ![3, v724.toNat, 208]
def k0_off58 (i : grid0.Coords) (k0_t1 : Fin k0_t1_loop.trips) (c0_i32_25 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c48_i32 : BitVec 32 := 48#32
  let v2 : BitVec 32 := Scalar.muli v1 c48_i32
  let c0_i32_9 : BitVec 32 := 0#32
  let c1_i32_10 : BitVec 32 := 1#32
  let arg12 : BitVec 32 := Scf.iv c0_i32_9 c1_i32_10 k0_t1
  let c2_i32_24 : BitVec 32 := 2#32
  let v18 : BitVec 32 := Scalar.muli arg12 c2_i32_24
  let v19 : BitVec 32 := Scalar.addi v18 c0_i32_25
  let c0_i32_40 : BitVec 32 := 0#32
  let v27 : BitVec 1 := Scalar.cmpi .sgt v19 c0_i32_40
  let v28 : BitVec 32 := Scalar.extui v27
  let c0_i32_41 : BitVec 32 := 0#32
  let v29 : BitVec 1 := Scalar.cmpi .slt v19 c0_i32_41
  let v30 : BitVec 32 := Scalar.extui v29
  let v31 : BitVec 32 := Scalar.subi v28 v30
  let c7_i32_39 : BitVec 32 := 7#32
  let c0_i32_42 : BitVec 32 := 0#32
  let v32 : BitVec 1 := Scalar.cmpi .sgt c7_i32_39 c0_i32_42
  let v33 : BitVec 32 := Scalar.extui v32
  let c0_i32_43 : BitVec 32 := 0#32
  let v34 : BitVec 1 := Scalar.cmpi .slt c7_i32_39 c0_i32_43
  let v35 : BitVec 32 := Scalar.extui v34
  let v36 : BitVec 32 := Scalar.subi v33 v35
  let v37 : BitVec 1 := Scalar.cmpi .ne v31 v36
  let v38 : BitVec 32 := Scalar.remsi v19 c7_i32_39
  let c0_i32_44 : BitVec 32 := 0#32
  let v39 : BitVec 1 := Scalar.cmpi .ne v38 c0_i32_44
  let v40 : BitVec 1 := Scalar.andi v37 v39
  let v26 : BitVec 32 := Scalar.divsi v19 c7_i32_39
  let c1_i32_45 : BitVec 32 := 1#32
  let v41 : BitVec 32 := Scalar.subi v26 c1_i32_45
  let v42 : BitVec 32 := Scalar.select v40 v41 v26
  let c4_i32 : BitVec 32 := 4#32
  let v44 : BitVec 32 := Scalar.muli v42 c4_i32
  let v45 : BitVec 32 := Scalar.addi v2 v44
  let c7_i32_46 : BitVec 32 := 7#32
  let v43 : BitVec 32 := Scalar.remsi v19 c7_i32_46
  let c32_i32_47 : BitVec 32 := 32#32
  let v46 : BitVec 32 := Scalar.muli v43 c32_i32_47
  let c0_i32_48 : BitVec 32 := 0#32
  ![v45.toNat, v46.toNat, 0]
def k0_cond2 (k0_t1 : Fin k0_t1_loop.trips) : BitVec 1 :=
  let c0_i32_9 : BitVec 32 := 0#32
  let c1_i32_10 : BitVec 32 := 1#32
  let arg12 : BitVec 32 := Scf.iv c0_i32_9 c1_i32_10 k0_t1
  let c2_i32_24 : BitVec 32 := 2#32
  let v18 : BitVec 32 := Scalar.muli arg12 c2_i32_24
  let c0_i32_25 : BitVec 32 := 0#32
  let v19 : BitVec 32 := Scalar.addi v18 c0_i32_25
  let c2_i32_50 : BitVec 32 := 2#32
  let v49 : BitVec 32 := Scalar.addi v19 c2_i32_50
  let c84_i32 : BitVec 32 := 84#32
  let v50 : BitVec 1 := Scalar.cmpi .slt v49 c84_i32
  let v51 : BitVec 32 := Scalar.extui v50
  let c0_i32_51 : BitVec 32 := 0#32
  let v52 : BitVec 1 := Scalar.cmpi .ne v51 c0_i32_51
  v52

def k0_off59 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c48_i32 : BitVec 32 := 48#32
  let v2 : BitVec 32 := Scalar.muli v1 c48_i32
  let c0_i32_9 : BitVec 32 := 0#32
  let c1_i32_10 : BitVec 32 := 1#32
  let arg12 : BitVec 32 := Scf.iv c0_i32_9 c1_i32_10 k0_t1
  let c2_i32_24 : BitVec 32 := 2#32
  let v18 : BitVec 32 := Scalar.muli arg12 c2_i32_24
  let c0_i32_25 : BitVec 32 := 0#32
  let v19 : BitVec 32 := Scalar.addi v18 c0_i32_25
  let c2_i32_81 : BitVec 32 := 2#32
  let v87 : BitVec 32 := Scalar.addi v19 c2_i32_81
  let c0_i32_83 : BitVec 32 := 0#32
  let v89 : BitVec 1 := Scalar.cmpi .sgt v87 c0_i32_83
  let v90 : BitVec 32 := Scalar.extui v89
  let c0_i32_84 : BitVec 32 := 0#32
  let v91 : BitVec 1 := Scalar.cmpi .slt v87 c0_i32_84
  let v92 : BitVec 32 := Scalar.extui v91
  let v93 : BitVec 32 := Scalar.subi v90 v92
  let c7_i32_82 : BitVec 32 := 7#32
  let c0_i32_85 : BitVec 32 := 0#32
  let v94 : BitVec 1 := Scalar.cmpi .sgt c7_i32_82 c0_i32_85
  let v95 : BitVec 32 := Scalar.extui v94
  let c0_i32_86 : BitVec 32 := 0#32
  let v96 : BitVec 1 := Scalar.cmpi .slt c7_i32_82 c0_i32_86
  let v97 : BitVec 32 := Scalar.extui v96
  let v98 : BitVec 32 := Scalar.subi v95 v97
  let v99 : BitVec 1 := Scalar.cmpi .ne v93 v98
  let v100 : BitVec 32 := Scalar.remsi v87 c7_i32_82
  let c0_i32_87 : BitVec 32 := 0#32
  let v101 : BitVec 1 := Scalar.cmpi .ne v100 c0_i32_87
  let v102 : BitVec 1 := Scalar.andi v99 v101
  let v88 : BitVec 32 := Scalar.divsi v87 c7_i32_82
  let c1_i32_88 : BitVec 32 := 1#32
  let v103 : BitVec 32 := Scalar.subi v88 c1_i32_88
  let v104 : BitVec 32 := Scalar.select v102 v103 v88
  let c4_i32_90 : BitVec 32 := 4#32
  let v106 : BitVec 32 := Scalar.muli v104 c4_i32_90
  let v107 : BitVec 32 := Scalar.addi v2 v106
  let c7_i32_89 : BitVec 32 := 7#32
  let v105 : BitVec 32 := Scalar.remsi v87 c7_i32_89
  let c32_i32_91 : BitVec 32 := 32#32
  let v108 : BitVec 32 := Scalar.muli v105 c32_i32_91
  let c0_i32_92 : BitVec 32 := 0#32
  ![v107.toNat, v108.toNat, 0]
@[reducible] def k0_t3_loop : Scf.Loop 32 :=
  let c0_i32_62 : BitVec 32 := 0#32
  let c32_i32_63 : BitVec 32 := 32#32
  let v59 : BitVec 32 := Scalar.addi c0_i32_62 c32_i32_63
  let c1_i32_64 : BitVec 32 := 1#32
  ⟨c0_i32_62, v59, c1_i32_64⟩
def k0_off60 (k0_t3 : Fin k0_t3_loop.trips) : Fin 3 → Nat :=
  let c0_i32_81 : BitVec 32 := 0#32
  let v87 : Index := Scalar.indexCast c0_i32_81
  let c0_i32_62 : BitVec 32 := 0#32
  let c1_i32_64 : BitVec 32 := 1#32
  let arg13 : BitVec 32 := Scf.iv c0_i32_62 c1_i32_64 k0_t3
  let v88 : Index := Scalar.indexCast arg13
  let c0 : Index := 0#32
  ![0, v88.toNat, 0]
def k0_off61 (k0_t3 : Fin k0_t3_loop.trips) : Fin 3 → Nat :=
  let c1_i32_82 : BitVec 32 := 1#32
  let v91 : Index := Scalar.indexCast c1_i32_82
  let c0_i32_62 : BitVec 32 := 0#32
  let c1_i32_64 : BitVec 32 := 1#32
  let arg13 : BitVec 32 := Scf.iv c0_i32_62 c1_i32_64 k0_t3
  let v92 : Index := Scalar.indexCast arg13
  let c0_83 : Index := 0#32
  ![1, v92.toNat, 0]
def k0_off62 (k0_t3 : Fin k0_t3_loop.trips) : Fin 3 → Nat :=
  let c2_i32_84 : BitVec 32 := 2#32
  let v95 : Index := Scalar.indexCast c2_i32_84
  let c0_i32_62 : BitVec 32 := 0#32
  let c1_i32_64 : BitVec 32 := 1#32
  let arg13 : BitVec 32 := Scf.iv c0_i32_62 c1_i32_64 k0_t3
  let v96 : Index := Scalar.indexCast arg13
  let c0_85 : Index := 0#32
  ![2, v96.toNat, 0]
def k0_off63 (k0_t3 : Fin k0_t3_loop.trips) : Fin 3 → Nat :=
  let c3_i32 : BitVec 32 := 3#32
  let v99 : Index := Scalar.indexCast c3_i32
  let c0_i32_62 : BitVec 32 := 0#32
  let c1_i32_64 : BitVec 32 := 1#32
  let arg13 : BitVec 32 := Scf.iv c0_i32_62 c1_i32_64 k0_t3
  let v100 : Index := Scalar.indexCast arg13
  let c0_86 : Index := 0#32
  ![3, v100.toNat, 0]
def k0_off64 (k0_t3 : Fin k0_t3_loop.trips) : Fin 3 → Nat :=
  let c0_i32_95 : BitVec 32 := 0#32
  let v135 : Index := Scalar.indexCast c0_i32_95
  let c0_i32_62 : BitVec 32 := 0#32
  let c1_i32_64 : BitVec 32 := 1#32
  let arg13 : BitVec 32 := Scf.iv c0_i32_62 c1_i32_64 k0_t3
  let v136 : Index := Scalar.indexCast arg13
  let c16 : Index := 16#32
  ![0, v136.toNat, 16]
def k0_off65 (k0_t3 : Fin k0_t3_loop.trips) : Fin 3 → Nat :=
  let c1_i32_96 : BitVec 32 := 1#32
  let v139 : Index := Scalar.indexCast c1_i32_96
  let c0_i32_62 : BitVec 32 := 0#32
  let c1_i32_64 : BitVec 32 := 1#32
  let arg13 : BitVec 32 := Scf.iv c0_i32_62 c1_i32_64 k0_t3
  let v140 : Index := Scalar.indexCast arg13
  let c16_97 : Index := 16#32
  ![1, v140.toNat, 16]
def k0_off66 (k0_t3 : Fin k0_t3_loop.trips) : Fin 3 → Nat :=
  let c2_i32_98 : BitVec 32 := 2#32
  let v143 : Index := Scalar.indexCast c2_i32_98
  let c0_i32_62 : BitVec 32 := 0#32
  let c1_i32_64 : BitVec 32 := 1#32
  let arg13 : BitVec 32 := Scf.iv c0_i32_62 c1_i32_64 k0_t3
  let v144 : Index := Scalar.indexCast arg13
  let c16_99 : Index := 16#32
  ![2, v144.toNat, 16]
def k0_off67 (k0_t3 : Fin k0_t3_loop.trips) : Fin 3 → Nat :=
  let c3_i32_100 : BitVec 32 := 3#32
  let v147 : Index := Scalar.indexCast c3_i32_100
  let c0_i32_62 : BitVec 32 := 0#32
  let c1_i32_64 : BitVec 32 := 1#32
  let arg13 : BitVec 32 := Scf.iv c0_i32_62 c1_i32_64 k0_t3
  let v148 : Index := Scalar.indexCast arg13
  let c16_101 : Index := 16#32
  ![3, v148.toNat, 16]
def k0_off68 (k0_t3 : Fin k0_t3_loop.trips) : Fin 3 → Nat :=
  let c0_i32_111 : BitVec 32 := 0#32
  let v183 : Index := Scalar.indexCast c0_i32_111
  let c0_i32_62 : BitVec 32 := 0#32
  let c1_i32_64 : BitVec 32 := 1#32
  let arg13 : BitVec 32 := Scf.iv c0_i32_62 c1_i32_64 k0_t3
  let v184 : Index := Scalar.indexCast arg13
  let c32 : Index := 32#32
  ![0, v184.toNat, 32]
def k0_off69 (k0_t3 : Fin k0_t3_loop.trips) : Fin 3 → Nat :=
  let c1_i32_112 : BitVec 32 := 1#32
  let v187 : Index := Scalar.indexCast c1_i32_112
  let c0_i32_62 : BitVec 32 := 0#32
  let c1_i32_64 : BitVec 32 := 1#32
  let arg13 : BitVec 32 := Scf.iv c0_i32_62 c1_i32_64 k0_t3
  let v188 : Index := Scalar.indexCast arg13
  let c32_113 : Index := 32#32
  ![1, v188.toNat, 32]
def k0_off70 (k0_t3 : Fin k0_t3_loop.trips) : Fin 3 → Nat :=
  let c2_i32_114 : BitVec 32 := 2#32
  let v191 : Index := Scalar.indexCast c2_i32_114
  let c0_i32_62 : BitVec 32 := 0#32
  let c1_i32_64 : BitVec 32 := 1#32
  let arg13 : BitVec 32 := Scf.iv c0_i32_62 c1_i32_64 k0_t3
  let v192 : Index := Scalar.indexCast arg13
  let c32_115 : Index := 32#32
  ![2, v192.toNat, 32]
def k0_off71 (k0_t3 : Fin k0_t3_loop.trips) : Fin 3 → Nat :=
  let c3_i32_116 : BitVec 32 := 3#32
  let v195 : Index := Scalar.indexCast c3_i32_116
  let c0_i32_62 : BitVec 32 := 0#32
  let c1_i32_64 : BitVec 32 := 1#32
  let arg13 : BitVec 32 := Scf.iv c0_i32_62 c1_i32_64 k0_t3
  let v196 : Index := Scalar.indexCast arg13
  let c32_117 : Index := 32#32
  ![3, v196.toNat, 32]
def k0_off72 (k0_t3 : Fin k0_t3_loop.trips) : Fin 3 → Nat :=
  let c0_i32_127 : BitVec 32 := 0#32
  let v231 : Index := Scalar.indexCast c0_i32_127
  let c0_i32_62 : BitVec 32 := 0#32
  let c1_i32_64 : BitVec 32 := 1#32
  let arg13 : BitVec 32 := Scf.iv c0_i32_62 c1_i32_64 k0_t3
  let v232 : Index := Scalar.indexCast arg13
  let c48 : Index := 48#32
  ![0, v232.toNat, 48]
def k0_off73 (k0_t3 : Fin k0_t3_loop.trips) : Fin 3 → Nat :=
  let c1_i32_128 : BitVec 32 := 1#32
  let v235 : Index := Scalar.indexCast c1_i32_128
  let c0_i32_62 : BitVec 32 := 0#32
  let c1_i32_64 : BitVec 32 := 1#32
  let arg13 : BitVec 32 := Scf.iv c0_i32_62 c1_i32_64 k0_t3
  let v236 : Index := Scalar.indexCast arg13
  let c48_129 : Index := 48#32
  ![1, v236.toNat, 48]
def k0_off74 (k0_t3 : Fin k0_t3_loop.trips) : Fin 3 → Nat :=
  let c2_i32_130 : BitVec 32 := 2#32
  let v239 : Index := Scalar.indexCast c2_i32_130
  let c0_i32_62 : BitVec 32 := 0#32
  let c1_i32_64 : BitVec 32 := 1#32
  let arg13 : BitVec 32 := Scf.iv c0_i32_62 c1_i32_64 k0_t3
  let v240 : Index := Scalar.indexCast arg13
  let c48_131 : Index := 48#32
  ![2, v240.toNat, 48]
def k0_off75 (k0_t3 : Fin k0_t3_loop.trips) : Fin 3 → Nat :=
  let c3_i32_132 : BitVec 32 := 3#32
  let v243 : Index := Scalar.indexCast c3_i32_132
  let c0_i32_62 : BitVec 32 := 0#32
  let c1_i32_64 : BitVec 32 := 1#32
  let arg13 : BitVec 32 := Scf.iv c0_i32_62 c1_i32_64 k0_t3
  let v244 : Index := Scalar.indexCast arg13
  let c48_133 : Index := 48#32
  ![3, v244.toNat, 48]
def k0_off76 (k0_t3 : Fin k0_t3_loop.trips) : Fin 3 → Nat :=
  let c0_i32_143 : BitVec 32 := 0#32
  let v279 : Index := Scalar.indexCast c0_i32_143
  let c0_i32_62 : BitVec 32 := 0#32
  let c1_i32_64 : BitVec 32 := 1#32
  let arg13 : BitVec 32 := Scf.iv c0_i32_62 c1_i32_64 k0_t3
  let v280 : Index := Scalar.indexCast arg13
  let c64 : Index := 64#32
  ![0, v280.toNat, 64]
def k0_off77 (k0_t3 : Fin k0_t3_loop.trips) : Fin 3 → Nat :=
  let c1_i32_144 : BitVec 32 := 1#32
  let v283 : Index := Scalar.indexCast c1_i32_144
  let c0_i32_62 : BitVec 32 := 0#32
  let c1_i32_64 : BitVec 32 := 1#32
  let arg13 : BitVec 32 := Scf.iv c0_i32_62 c1_i32_64 k0_t3
  let v284 : Index := Scalar.indexCast arg13
  let c64_145 : Index := 64#32
  ![1, v284.toNat, 64]
def k0_off78 (k0_t3 : Fin k0_t3_loop.trips) : Fin 3 → Nat :=
  let c2_i32_146 : BitVec 32 := 2#32
  let v287 : Index := Scalar.indexCast c2_i32_146
  let c0_i32_62 : BitVec 32 := 0#32
  let c1_i32_64 : BitVec 32 := 1#32
  let arg13 : BitVec 32 := Scf.iv c0_i32_62 c1_i32_64 k0_t3
  let v288 : Index := Scalar.indexCast arg13
  let c64_147 : Index := 64#32
  ![2, v288.toNat, 64]
def k0_off79 (k0_t3 : Fin k0_t3_loop.trips) : Fin 3 → Nat :=
  let c3_i32_148 : BitVec 32 := 3#32
  let v291 : Index := Scalar.indexCast c3_i32_148
  let c0_i32_62 : BitVec 32 := 0#32
  let c1_i32_64 : BitVec 32 := 1#32
  let arg13 : BitVec 32 := Scf.iv c0_i32_62 c1_i32_64 k0_t3
  let v292 : Index := Scalar.indexCast arg13
  let c64_149 : Index := 64#32
  ![3, v292.toNat, 64]
def k0_off80 (k0_t3 : Fin k0_t3_loop.trips) : Fin 3 → Nat :=
  let c0_i32_159 : BitVec 32 := 0#32
  let v327 : Index := Scalar.indexCast c0_i32_159
  let c0_i32_62 : BitVec 32 := 0#32
  let c1_i32_64 : BitVec 32 := 1#32
  let arg13 : BitVec 32 := Scf.iv c0_i32_62 c1_i32_64 k0_t3
  let v328 : Index := Scalar.indexCast arg13
  let c80 : Index := 80#32
  ![0, v328.toNat, 80]
def k0_off81 (k0_t3 : Fin k0_t3_loop.trips) : Fin 3 → Nat :=
  let c1_i32_160 : BitVec 32 := 1#32
  let v331 : Index := Scalar.indexCast c1_i32_160
  let c0_i32_62 : BitVec 32 := 0#32
  let c1_i32_64 : BitVec 32 := 1#32
  let arg13 : BitVec 32 := Scf.iv c0_i32_62 c1_i32_64 k0_t3
  let v332 : Index := Scalar.indexCast arg13
  let c80_161 : Index := 80#32
  ![1, v332.toNat, 80]
def k0_off82 (k0_t3 : Fin k0_t3_loop.trips) : Fin 3 → Nat :=
  let c2_i32_162 : BitVec 32 := 2#32
  let v335 : Index := Scalar.indexCast c2_i32_162
  let c0_i32_62 : BitVec 32 := 0#32
  let c1_i32_64 : BitVec 32 := 1#32
  let arg13 : BitVec 32 := Scf.iv c0_i32_62 c1_i32_64 k0_t3
  let v336 : Index := Scalar.indexCast arg13
  let c80_163 : Index := 80#32
  ![2, v336.toNat, 80]
def k0_off83 (k0_t3 : Fin k0_t3_loop.trips) : Fin 3 → Nat :=
  let c3_i32_164 : BitVec 32 := 3#32
  let v339 : Index := Scalar.indexCast c3_i32_164
  let c0_i32_62 : BitVec 32 := 0#32
  let c1_i32_64 : BitVec 32 := 1#32
  let arg13 : BitVec 32 := Scf.iv c0_i32_62 c1_i32_64 k0_t3
  let v340 : Index := Scalar.indexCast arg13
  let c80_165 : Index := 80#32
  ![3, v340.toNat, 80]
def k0_off84 (k0_t3 : Fin k0_t3_loop.trips) : Fin 3 → Nat :=
  let c0_i32_175 : BitVec 32 := 0#32
  let v375 : Index := Scalar.indexCast c0_i32_175
  let c0_i32_62 : BitVec 32 := 0#32
  let c1_i32_64 : BitVec 32 := 1#32
  let arg13 : BitVec 32 := Scf.iv c0_i32_62 c1_i32_64 k0_t3
  let v376 : Index := Scalar.indexCast arg13
  let c96 : Index := 96#32
  ![0, v376.toNat, 96]
def k0_off85 (k0_t3 : Fin k0_t3_loop.trips) : Fin 3 → Nat :=
  let c1_i32_176 : BitVec 32 := 1#32
  let v379 : Index := Scalar.indexCast c1_i32_176
  let c0_i32_62 : BitVec 32 := 0#32
  let c1_i32_64 : BitVec 32 := 1#32
  let arg13 : BitVec 32 := Scf.iv c0_i32_62 c1_i32_64 k0_t3
  let v380 : Index := Scalar.indexCast arg13
  let c96_177 : Index := 96#32
  ![1, v380.toNat, 96]
def k0_off86 (k0_t3 : Fin k0_t3_loop.trips) : Fin 3 → Nat :=
  let c2_i32_178 : BitVec 32 := 2#32
  let v383 : Index := Scalar.indexCast c2_i32_178
  let c0_i32_62 : BitVec 32 := 0#32
  let c1_i32_64 : BitVec 32 := 1#32
  let arg13 : BitVec 32 := Scf.iv c0_i32_62 c1_i32_64 k0_t3
  let v384 : Index := Scalar.indexCast arg13
  let c96_179 : Index := 96#32
  ![2, v384.toNat, 96]
def k0_off87 (k0_t3 : Fin k0_t3_loop.trips) : Fin 3 → Nat :=
  let c3_i32_180 : BitVec 32 := 3#32
  let v387 : Index := Scalar.indexCast c3_i32_180
  let c0_i32_62 : BitVec 32 := 0#32
  let c1_i32_64 : BitVec 32 := 1#32
  let arg13 : BitVec 32 := Scf.iv c0_i32_62 c1_i32_64 k0_t3
  let v388 : Index := Scalar.indexCast arg13
  let c96_181 : Index := 96#32
  ![3, v388.toNat, 96]
def k0_off88 (k0_t3 : Fin k0_t3_loop.trips) : Fin 3 → Nat :=
  let c0_i32_191 : BitVec 32 := 0#32
  let v423 : Index := Scalar.indexCast c0_i32_191
  let c0_i32_62 : BitVec 32 := 0#32
  let c1_i32_64 : BitVec 32 := 1#32
  let arg13 : BitVec 32 := Scf.iv c0_i32_62 c1_i32_64 k0_t3
  let v424 : Index := Scalar.indexCast arg13
  let c112 : Index := 112#32
  ![0, v424.toNat, 112]
def k0_off89 (k0_t3 : Fin k0_t3_loop.trips) : Fin 3 → Nat :=
  let c1_i32_192 : BitVec 32 := 1#32
  let v427 : Index := Scalar.indexCast c1_i32_192
  let c0_i32_62 : BitVec 32 := 0#32
  let c1_i32_64 : BitVec 32 := 1#32
  let arg13 : BitVec 32 := Scf.iv c0_i32_62 c1_i32_64 k0_t3
  let v428 : Index := Scalar.indexCast arg13
  let c112_193 : Index := 112#32
  ![1, v428.toNat, 112]
def k0_off90 (k0_t3 : Fin k0_t3_loop.trips) : Fin 3 → Nat :=
  let c2_i32_194 : BitVec 32 := 2#32
  let v431 : Index := Scalar.indexCast c2_i32_194
  let c0_i32_62 : BitVec 32 := 0#32
  let c1_i32_64 : BitVec 32 := 1#32
  let arg13 : BitVec 32 := Scf.iv c0_i32_62 c1_i32_64 k0_t3
  let v432 : Index := Scalar.indexCast arg13
  let c112_195 : Index := 112#32
  ![2, v432.toNat, 112]
def k0_off91 (k0_t3 : Fin k0_t3_loop.trips) : Fin 3 → Nat :=
  let c3_i32_196 : BitVec 32 := 3#32
  let v435 : Index := Scalar.indexCast c3_i32_196
  let c0_i32_62 : BitVec 32 := 0#32
  let c1_i32_64 : BitVec 32 := 1#32
  let arg13 : BitVec 32 := Scf.iv c0_i32_62 c1_i32_64 k0_t3
  let v436 : Index := Scalar.indexCast arg13
  let c112_197 : Index := 112#32
  ![3, v436.toNat, 112]
def k0_off92 (k0_t3 : Fin k0_t3_loop.trips) : Fin 3 → Nat :=
  let c0_i32_207 : BitVec 32 := 0#32
  let v471 : Index := Scalar.indexCast c0_i32_207
  let c0_i32_62 : BitVec 32 := 0#32
  let c1_i32_64 : BitVec 32 := 1#32
  let arg13 : BitVec 32 := Scf.iv c0_i32_62 c1_i32_64 k0_t3
  let v472 : Index := Scalar.indexCast arg13
  let c128 : Index := 128#32
  ![0, v472.toNat, 128]
def k0_off93 (k0_t3 : Fin k0_t3_loop.trips) : Fin 3 → Nat :=
  let c1_i32_208 : BitVec 32 := 1#32
  let v475 : Index := Scalar.indexCast c1_i32_208
  let c0_i32_62 : BitVec 32 := 0#32
  let c1_i32_64 : BitVec 32 := 1#32
  let arg13 : BitVec 32 := Scf.iv c0_i32_62 c1_i32_64 k0_t3
  let v476 : Index := Scalar.indexCast arg13
  let c128_209 : Index := 128#32
  ![1, v476.toNat, 128]
def k0_off94 (k0_t3 : Fin k0_t3_loop.trips) : Fin 3 → Nat :=
  let c2_i32_210 : BitVec 32 := 2#32
  let v479 : Index := Scalar.indexCast c2_i32_210
  let c0_i32_62 : BitVec 32 := 0#32
  let c1_i32_64 : BitVec 32 := 1#32
  let arg13 : BitVec 32 := Scf.iv c0_i32_62 c1_i32_64 k0_t3
  let v480 : Index := Scalar.indexCast arg13
  let c128_211 : Index := 128#32
  ![2, v480.toNat, 128]
def k0_off95 (k0_t3 : Fin k0_t3_loop.trips) : Fin 3 → Nat :=
  let c3_i32_212 : BitVec 32 := 3#32
  let v483 : Index := Scalar.indexCast c3_i32_212
  let c0_i32_62 : BitVec 32 := 0#32
  let c1_i32_64 : BitVec 32 := 1#32
  let arg13 : BitVec 32 := Scf.iv c0_i32_62 c1_i32_64 k0_t3
  let v484 : Index := Scalar.indexCast arg13
  let c128_213 : Index := 128#32
  ![3, v484.toNat, 128]
def k0_off96 (k0_t3 : Fin k0_t3_loop.trips) : Fin 3 → Nat :=
  let c0_i32_223 : BitVec 32 := 0#32
  let v519 : Index := Scalar.indexCast c0_i32_223
  let c0_i32_62 : BitVec 32 := 0#32
  let c1_i32_64 : BitVec 32 := 1#32
  let arg13 : BitVec 32 := Scf.iv c0_i32_62 c1_i32_64 k0_t3
  let v520 : Index := Scalar.indexCast arg13
  let c144 : Index := 144#32
  ![0, v520.toNat, 144]
def k0_off97 (k0_t3 : Fin k0_t3_loop.trips) : Fin 3 → Nat :=
  let c1_i32_224 : BitVec 32 := 1#32
  let v523 : Index := Scalar.indexCast c1_i32_224
  let c0_i32_62 : BitVec 32 := 0#32
  let c1_i32_64 : BitVec 32 := 1#32
  let arg13 : BitVec 32 := Scf.iv c0_i32_62 c1_i32_64 k0_t3
  let v524 : Index := Scalar.indexCast arg13
  let c144_225 : Index := 144#32
  ![1, v524.toNat, 144]
def k0_off98 (k0_t3 : Fin k0_t3_loop.trips) : Fin 3 → Nat :=
  let c2_i32_226 : BitVec 32 := 2#32
  let v527 : Index := Scalar.indexCast c2_i32_226
  let c0_i32_62 : BitVec 32 := 0#32
  let c1_i32_64 : BitVec 32 := 1#32
  let arg13 : BitVec 32 := Scf.iv c0_i32_62 c1_i32_64 k0_t3
  let v528 : Index := Scalar.indexCast arg13
  let c144_227 : Index := 144#32
  ![2, v528.toNat, 144]
def k0_off99 (k0_t3 : Fin k0_t3_loop.trips) : Fin 3 → Nat :=
  let c3_i32_228 : BitVec 32 := 3#32
  let v531 : Index := Scalar.indexCast c3_i32_228
  let c0_i32_62 : BitVec 32 := 0#32
  let c1_i32_64 : BitVec 32 := 1#32
  let arg13 : BitVec 32 := Scf.iv c0_i32_62 c1_i32_64 k0_t3
  let v532 : Index := Scalar.indexCast arg13
  let c144_229 : Index := 144#32
  ![3, v532.toNat, 144]
def k0_off100 (k0_t3 : Fin k0_t3_loop.trips) : Fin 3 → Nat :=
  let c0_i32_239 : BitVec 32 := 0#32
  let v567 : Index := Scalar.indexCast c0_i32_239
  let c0_i32_62 : BitVec 32 := 0#32
  let c1_i32_64 : BitVec 32 := 1#32
  let arg13 : BitVec 32 := Scf.iv c0_i32_62 c1_i32_64 k0_t3
  let v568 : Index := Scalar.indexCast arg13
  let c160 : Index := 160#32
  ![0, v568.toNat, 160]
def k0_off101 (k0_t3 : Fin k0_t3_loop.trips) : Fin 3 → Nat :=
  let c1_i32_240 : BitVec 32 := 1#32
  let v571 : Index := Scalar.indexCast c1_i32_240
  let c0_i32_62 : BitVec 32 := 0#32
  let c1_i32_64 : BitVec 32 := 1#32
  let arg13 : BitVec 32 := Scf.iv c0_i32_62 c1_i32_64 k0_t3
  let v572 : Index := Scalar.indexCast arg13
  let c160_241 : Index := 160#32
  ![1, v572.toNat, 160]
def k0_off102 (k0_t3 : Fin k0_t3_loop.trips) : Fin 3 → Nat :=
  let c2_i32_242 : BitVec 32 := 2#32
  let v575 : Index := Scalar.indexCast c2_i32_242
  let c0_i32_62 : BitVec 32 := 0#32
  let c1_i32_64 : BitVec 32 := 1#32
  let arg13 : BitVec 32 := Scf.iv c0_i32_62 c1_i32_64 k0_t3
  let v576 : Index := Scalar.indexCast arg13
  let c160_243 : Index := 160#32
  ![2, v576.toNat, 160]
def k0_off103 (k0_t3 : Fin k0_t3_loop.trips) : Fin 3 → Nat :=
  let c3_i32_244 : BitVec 32 := 3#32
  let v579 : Index := Scalar.indexCast c3_i32_244
  let c0_i32_62 : BitVec 32 := 0#32
  let c1_i32_64 : BitVec 32 := 1#32
  let arg13 : BitVec 32 := Scf.iv c0_i32_62 c1_i32_64 k0_t3
  let v580 : Index := Scalar.indexCast arg13
  let c160_245 : Index := 160#32
  ![3, v580.toNat, 160]
def k0_off104 (k0_t3 : Fin k0_t3_loop.trips) : Fin 3 → Nat :=
  let c0_i32_255 : BitVec 32 := 0#32
  let v615 : Index := Scalar.indexCast c0_i32_255
  let c0_i32_62 : BitVec 32 := 0#32
  let c1_i32_64 : BitVec 32 := 1#32
  let arg13 : BitVec 32 := Scf.iv c0_i32_62 c1_i32_64 k0_t3
  let v616 : Index := Scalar.indexCast arg13
  let c176 : Index := 176#32
  ![0, v616.toNat, 176]
def k0_off105 (k0_t3 : Fin k0_t3_loop.trips) : Fin 3 → Nat :=
  let c1_i32_256 : BitVec 32 := 1#32
  let v619 : Index := Scalar.indexCast c1_i32_256
  let c0_i32_62 : BitVec 32 := 0#32
  let c1_i32_64 : BitVec 32 := 1#32
  let arg13 : BitVec 32 := Scf.iv c0_i32_62 c1_i32_64 k0_t3
  let v620 : Index := Scalar.indexCast arg13
  let c176_257 : Index := 176#32
  ![1, v620.toNat, 176]
def k0_off106 (k0_t3 : Fin k0_t3_loop.trips) : Fin 3 → Nat :=
  let c2_i32_258 : BitVec 32 := 2#32
  let v623 : Index := Scalar.indexCast c2_i32_258
  let c0_i32_62 : BitVec 32 := 0#32
  let c1_i32_64 : BitVec 32 := 1#32
  let arg13 : BitVec 32 := Scf.iv c0_i32_62 c1_i32_64 k0_t3
  let v624 : Index := Scalar.indexCast arg13
  let c176_259 : Index := 176#32
  ![2, v624.toNat, 176]
def k0_off107 (k0_t3 : Fin k0_t3_loop.trips) : Fin 3 → Nat :=
  let c3_i32_260 : BitVec 32 := 3#32
  let v627 : Index := Scalar.indexCast c3_i32_260
  let c0_i32_62 : BitVec 32 := 0#32
  let c1_i32_64 : BitVec 32 := 1#32
  let arg13 : BitVec 32 := Scf.iv c0_i32_62 c1_i32_64 k0_t3
  let v628 : Index := Scalar.indexCast arg13
  let c176_261 : Index := 176#32
  ![3, v628.toNat, 176]
def k0_off108 (k0_t3 : Fin k0_t3_loop.trips) : Fin 3 → Nat :=
  let c0_i32_271 : BitVec 32 := 0#32
  let v663 : Index := Scalar.indexCast c0_i32_271
  let c0_i32_62 : BitVec 32 := 0#32
  let c1_i32_64 : BitVec 32 := 1#32
  let arg13 : BitVec 32 := Scf.iv c0_i32_62 c1_i32_64 k0_t3
  let v664 : Index := Scalar.indexCast arg13
  let c192 : Index := 192#32
  ![0, v664.toNat, 192]
def k0_off109 (k0_t3 : Fin k0_t3_loop.trips) : Fin 3 → Nat :=
  let c1_i32_272 : BitVec 32 := 1#32
  let v667 : Index := Scalar.indexCast c1_i32_272
  let c0_i32_62 : BitVec 32 := 0#32
  let c1_i32_64 : BitVec 32 := 1#32
  let arg13 : BitVec 32 := Scf.iv c0_i32_62 c1_i32_64 k0_t3
  let v668 : Index := Scalar.indexCast arg13
  let c192_273 : Index := 192#32
  ![1, v668.toNat, 192]
def k0_off110 (k0_t3 : Fin k0_t3_loop.trips) : Fin 3 → Nat :=
  let c2_i32_274 : BitVec 32 := 2#32
  let v671 : Index := Scalar.indexCast c2_i32_274
  let c0_i32_62 : BitVec 32 := 0#32
  let c1_i32_64 : BitVec 32 := 1#32
  let arg13 : BitVec 32 := Scf.iv c0_i32_62 c1_i32_64 k0_t3
  let v672 : Index := Scalar.indexCast arg13
  let c192_275 : Index := 192#32
  ![2, v672.toNat, 192]
def k0_off111 (k0_t3 : Fin k0_t3_loop.trips) : Fin 3 → Nat :=
  let c3_i32_276 : BitVec 32 := 3#32
  let v675 : Index := Scalar.indexCast c3_i32_276
  let c0_i32_62 : BitVec 32 := 0#32
  let c1_i32_64 : BitVec 32 := 1#32
  let arg13 : BitVec 32 := Scf.iv c0_i32_62 c1_i32_64 k0_t3
  let v676 : Index := Scalar.indexCast arg13
  let c192_277 : Index := 192#32
  ![3, v676.toNat, 192]
def k0_off112 (k0_t3 : Fin k0_t3_loop.trips) : Fin 3 → Nat :=
  let c0_i32_287 : BitVec 32 := 0#32
  let v711 : Index := Scalar.indexCast c0_i32_287
  let c0_i32_62 : BitVec 32 := 0#32
  let c1_i32_64 : BitVec 32 := 1#32
  let arg13 : BitVec 32 := Scf.iv c0_i32_62 c1_i32_64 k0_t3
  let v712 : Index := Scalar.indexCast arg13
  let c208 : Index := 208#32
  ![0, v712.toNat, 208]
def k0_off113 (k0_t3 : Fin k0_t3_loop.trips) : Fin 3 → Nat :=
  let c1_i32_288 : BitVec 32 := 1#32
  let v715 : Index := Scalar.indexCast c1_i32_288
  let c0_i32_62 : BitVec 32 := 0#32
  let c1_i32_64 : BitVec 32 := 1#32
  let arg13 : BitVec 32 := Scf.iv c0_i32_62 c1_i32_64 k0_t3
  let v716 : Index := Scalar.indexCast arg13
  let c208_289 : Index := 208#32
  ![1, v716.toNat, 208]
def k0_off114 (k0_t3 : Fin k0_t3_loop.trips) : Fin 3 → Nat :=
  let c2_i32_290 : BitVec 32 := 2#32
  let v719 : Index := Scalar.indexCast c2_i32_290
  let c0_i32_62 : BitVec 32 := 0#32
  let c1_i32_64 : BitVec 32 := 1#32
  let arg13 : BitVec 32 := Scf.iv c0_i32_62 c1_i32_64 k0_t3
  let v720 : Index := Scalar.indexCast arg13
  let c208_291 : Index := 208#32
  ![2, v720.toNat, 208]
def k0_off115 (k0_t3 : Fin k0_t3_loop.trips) : Fin 3 → Nat :=
  let c3_i32_292 : BitVec 32 := 3#32
  let v723 : Index := Scalar.indexCast c3_i32_292
  let c0_i32_62 : BitVec 32 := 0#32
  let c1_i32_64 : BitVec 32 := 1#32
  let arg13 : BitVec 32 := Scf.iv c0_i32_62 c1_i32_64 k0_t3
  let v724 : Index := Scalar.indexCast arg13
  let c208_293 : Index := 208#32
  ![3, v724.toNat, 208]
def k0_cond4 (k0_t1 : Fin k0_t1_loop.trips) : BitVec 1 :=
  let c0_i32_9 : BitVec 32 := 0#32
  let c1_i32_10 : BitVec 32 := 1#32
  let arg12 : BitVec 32 := Scf.iv c0_i32_9 c1_i32_10 k0_t1
  let c2_i32_24 : BitVec 32 := 2#32
  let v18 : BitVec 32 := Scalar.muli arg12 c2_i32_24
  let c1_i32_52 : BitVec 32 := 1#32
  let v53 : BitVec 32 := Scalar.addi v18 c1_i32_52
  let c2_i32_78 : BitVec 32 := 2#32
  let v83 : BitVec 32 := Scalar.addi v53 c2_i32_78
  let c84_i32_79 : BitVec 32 := 84#32
  let v84 : BitVec 1 := Scalar.cmpi .slt v83 c84_i32_79
  let v85 : BitVec 32 := Scalar.extui v84
  let c0_i32_80 : BitVec 32 := 0#32
  let v86 : BitVec 1 := Scalar.cmpi .ne v85 c0_i32_80
  v86

def k0_off116 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c48_i32 : BitVec 32 := 48#32
  let v2 : BitVec 32 := Scalar.muli v1 c48_i32
  let c0_i32_9 : BitVec 32 := 0#32
  let c1_i32_10 : BitVec 32 := 1#32
  let arg12 : BitVec 32 := Scf.iv c0_i32_9 c1_i32_10 k0_t1
  let c2_i32_24 : BitVec 32 := 2#32
  let v18 : BitVec 32 := Scalar.muli arg12 c2_i32_24
  let c1_i32_52 : BitVec 32 := 1#32
  let v53 : BitVec 32 := Scalar.addi v18 c1_i32_52
  let c2_i32_81 : BitVec 32 := 2#32
  let v87 : BitVec 32 := Scalar.addi v53 c2_i32_81
  let c0_i32_83 : BitVec 32 := 0#32
  let v89 : BitVec 1 := Scalar.cmpi .sgt v87 c0_i32_83
  let v90 : BitVec 32 := Scalar.extui v89
  let c0_i32_84 : BitVec 32 := 0#32
  let v91 : BitVec 1 := Scalar.cmpi .slt v87 c0_i32_84
  let v92 : BitVec 32 := Scalar.extui v91
  let v93 : BitVec 32 := Scalar.subi v90 v92
  let c7_i32_82 : BitVec 32 := 7#32
  let c0_i32_85 : BitVec 32 := 0#32
  let v94 : BitVec 1 := Scalar.cmpi .sgt c7_i32_82 c0_i32_85
  let v95 : BitVec 32 := Scalar.extui v94
  let c0_i32_86 : BitVec 32 := 0#32
  let v96 : BitVec 1 := Scalar.cmpi .slt c7_i32_82 c0_i32_86
  let v97 : BitVec 32 := Scalar.extui v96
  let v98 : BitVec 32 := Scalar.subi v95 v97
  let v99 : BitVec 1 := Scalar.cmpi .ne v93 v98
  let v100 : BitVec 32 := Scalar.remsi v87 c7_i32_82
  let c0_i32_87 : BitVec 32 := 0#32
  let v101 : BitVec 1 := Scalar.cmpi .ne v100 c0_i32_87
  let v102 : BitVec 1 := Scalar.andi v99 v101
  let v88 : BitVec 32 := Scalar.divsi v87 c7_i32_82
  let c1_i32_88 : BitVec 32 := 1#32
  let v103 : BitVec 32 := Scalar.subi v88 c1_i32_88
  let v104 : BitVec 32 := Scalar.select v102 v103 v88
  let c4_i32_90 : BitVec 32 := 4#32
  let v106 : BitVec 32 := Scalar.muli v104 c4_i32_90
  let v107 : BitVec 32 := Scalar.addi v2 v106
  let c7_i32_89 : BitVec 32 := 7#32
  let v105 : BitVec 32 := Scalar.remsi v87 c7_i32_89
  let c32_i32_91 : BitVec 32 := 32#32
  let v108 : BitVec 32 := Scalar.muli v105 c32_i32_91
  let c0_i32_92 : BitVec 32 := 0#32
  ![v107.toNat, v108.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S4x384x224x224_S1536x224x224 : S4x384x224x224.ShapeCasts S1536x224x224
  inb_S1536x224x224_S4x32x224_0_0_0 : ∀ a, (![0, 0, 0] : Fin 3 → Nat) a + S4x32x224.size a ≤ S1536x224x224.size a
  h_S1x1x16 : 0 < S1x1x16.numel
  shapeCasts_S1x1x16_S16 : S1x1x16.ShapeCasts S16
  shapeCasts_S16_S1x1x16 : S16.ShapeCasts S1x1x16
  shapeCasts_S1536x224x224_S4x384x224x224 : S1536x224x224.ShapeCasts S4x384x224x224
  hcc0_scratch4 : 0 + S_.numel ≤ 4
  hcc0_scratch5 : 1 + S_.numel ≤ 4
  hcc0_scratch6 : 2 + S_.numel ≤ 4
  hcc0_scratch7 : 3 + S_.numel ≤ 4
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ (r : Fin 2), ∀ a, (k0_off1 i (BitVec.ofNat 32 r.val)) a + S4x32x224.size a ≤ S1536x224x224.size a
  k0_t1_ok : k0_t1_loop.OK
  k0_t2_ok : k0_t2_loop.OK
  k0_off2_inb : ∀ k0_t2 : Fin k0_t2_loop.trips, ∀ a, (k0_off2 k0_t2) a + S1x1x16.size a ≤ S4x32x224.size a
  k0_off3_inb : ∀ k0_t2 : Fin k0_t2_loop.trips, ∀ a, (k0_off3 k0_t2) a + S1x1x16.size a ≤ S4x32x224.size a
  k0_off4_inb : ∀ k0_t2 : Fin k0_t2_loop.trips, ∀ a, (k0_off4 k0_t2) a + S1x1x16.size a ≤ S4x32x224.size a
  k0_off5_inb : ∀ k0_t2 : Fin k0_t2_loop.trips, ∀ a, (k0_off5 k0_t2) a + S1x1x16.size a ≤ S4x32x224.size a
  k0_off6_inb : ∀ k0_t2 : Fin k0_t2_loop.trips, ∀ a, (k0_off6 k0_t2) a + S1x1x16.size a ≤ S4x32x224.size a
  k0_off7_inb : ∀ k0_t2 : Fin k0_t2_loop.trips, ∀ a, (k0_off7 k0_t2) a + S1x1x16.size a ≤ S4x32x224.size a
  k0_off8_inb : ∀ k0_t2 : Fin k0_t2_loop.trips, ∀ a, (k0_off8 k0_t2) a + S1x1x16.size a ≤ S4x32x224.size a
  k0_off9_inb : ∀ k0_t2 : Fin k0_t2_loop.trips, ∀ a, (k0_off9 k0_t2) a + S1x1x16.size a ≤ S4x32x224.size a
  k0_off10_inb : ∀ k0_t2 : Fin k0_t2_loop.trips, ∀ a, (k0_off10 k0_t2) a + S1x1x16.size a ≤ S4x32x224.size a
  k0_off11_inb : ∀ k0_t2 : Fin k0_t2_loop.trips, ∀ a, (k0_off11 k0_t2) a + S1x1x16.size a ≤ S4x32x224.size a
  k0_off12_inb : ∀ k0_t2 : Fin k0_t2_loop.trips, ∀ a, (k0_off12 k0_t2) a + S1x1x16.size a ≤ S4x32x224.size a
  k0_off13_inb : ∀ k0_t2 : Fin k0_t2_loop.trips, ∀ a, (k0_off13 k0_t2) a + S1x1x16.size a ≤ S4x32x224.size a
  k0_off14_inb : ∀ k0_t2 : Fin k0_t2_loop.trips, ∀ a, (k0_off14 k0_t2) a + S1x1x16.size a ≤ S4x32x224.size a
  k0_off15_inb : ∀ k0_t2 : Fin k0_t2_loop.trips, ∀ a, (k0_off15 k0_t2) a + S1x1x16.size a ≤ S4x32x224.size a
  k0_off16_inb : ∀ k0_t2 : Fin k0_t2_loop.trips, ∀ a, (k0_off16 k0_t2) a + S1x1x16.size a ≤ S4x32x224.size a
  k0_off17_inb : ∀ k0_t2 : Fin k0_t2_loop.trips, ∀ a, (k0_off17 k0_t2) a + S1x1x16.size a ≤ S4x32x224.size a
  k0_off18_inb : ∀ k0_t2 : Fin k0_t2_loop.trips, ∀ a, (k0_off18 k0_t2) a + S1x1x16.size a ≤ S4x32x224.size a
  k0_off19_inb : ∀ k0_t2 : Fin k0_t2_loop.trips, ∀ a, (k0_off19 k0_t2) a + S1x1x16.size a ≤ S4x32x224.size a
  k0_off20_inb : ∀ k0_t2 : Fin k0_t2_loop.trips, ∀ a, (k0_off20 k0_t2) a + S1x1x16.size a ≤ S4x32x224.size a
  k0_off21_inb : ∀ k0_t2 : Fin k0_t2_loop.trips, ∀ a, (k0_off21 k0_t2) a + S1x1x16.size a ≤ S4x32x224.size a
  k0_off22_inb : ∀ k0_t2 : Fin k0_t2_loop.trips, ∀ a, (k0_off22 k0_t2) a + S1x1x16.size a ≤ S4x32x224.size a
  k0_off23_inb : ∀ k0_t2 : Fin k0_t2_loop.trips, ∀ a, (k0_off23 k0_t2) a + S1x1x16.size a ≤ S4x32x224.size a
  k0_off24_inb : ∀ k0_t2 : Fin k0_t2_loop.trips, ∀ a, (k0_off24 k0_t2) a + S1x1x16.size a ≤ S4x32x224.size a
  k0_off25_inb : ∀ k0_t2 : Fin k0_t2_loop.trips, ∀ a, (k0_off25 k0_t2) a + S1x1x16.size a ≤ S4x32x224.size a
  k0_off26_inb : ∀ k0_t2 : Fin k0_t2_loop.trips, ∀ a, (k0_off26 k0_t2) a + S1x1x16.size a ≤ S4x32x224.size a
  k0_off27_inb : ∀ k0_t2 : Fin k0_t2_loop.trips, ∀ a, (k0_off27 k0_t2) a + S1x1x16.size a ≤ S4x32x224.size a
  k0_off28_inb : ∀ k0_t2 : Fin k0_t2_loop.trips, ∀ a, (k0_off28 k0_t2) a + S1x1x16.size a ≤ S4x32x224.size a
  k0_off29_inb : ∀ k0_t2 : Fin k0_t2_loop.trips, ∀ a, (k0_off29 k0_t2) a + S1x1x16.size a ≤ S4x32x224.size a
  k0_off30_inb : ∀ k0_t2 : Fin k0_t2_loop.trips, ∀ a, (k0_off30 k0_t2) a + S1x1x16.size a ≤ S4x32x224.size a
  k0_off31_inb : ∀ k0_t2 : Fin k0_t2_loop.trips, ∀ a, (k0_off31 k0_t2) a + S1x1x16.size a ≤ S4x32x224.size a
  k0_off32_inb : ∀ k0_t2 : Fin k0_t2_loop.trips, ∀ a, (k0_off32 k0_t2) a + S1x1x16.size a ≤ S4x32x224.size a
  k0_off33_inb : ∀ k0_t2 : Fin k0_t2_loop.trips, ∀ a, (k0_off33 k0_t2) a + S1x1x16.size a ≤ S4x32x224.size a
  k0_off34_inb : ∀ k0_t2 : Fin k0_t2_loop.trips, ∀ a, (k0_off34 k0_t2) a + S1x1x16.size a ≤ S4x32x224.size a
  k0_off35_inb : ∀ k0_t2 : Fin k0_t2_loop.trips, ∀ a, (k0_off35 k0_t2) a + S1x1x16.size a ≤ S4x32x224.size a
  k0_off36_inb : ∀ k0_t2 : Fin k0_t2_loop.trips, ∀ a, (k0_off36 k0_t2) a + S1x1x16.size a ≤ S4x32x224.size a
  k0_off37_inb : ∀ k0_t2 : Fin k0_t2_loop.trips, ∀ a, (k0_off37 k0_t2) a + S1x1x16.size a ≤ S4x32x224.size a
  k0_off38_inb : ∀ k0_t2 : Fin k0_t2_loop.trips, ∀ a, (k0_off38 k0_t2) a + S1x1x16.size a ≤ S4x32x224.size a
  k0_off39_inb : ∀ k0_t2 : Fin k0_t2_loop.trips, ∀ a, (k0_off39 k0_t2) a + S1x1x16.size a ≤ S4x32x224.size a
  k0_off40_inb : ∀ k0_t2 : Fin k0_t2_loop.trips, ∀ a, (k0_off40 k0_t2) a + S1x1x16.size a ≤ S4x32x224.size a
  k0_off41_inb : ∀ k0_t2 : Fin k0_t2_loop.trips, ∀ a, (k0_off41 k0_t2) a + S1x1x16.size a ≤ S4x32x224.size a
  k0_off42_inb : ∀ k0_t2 : Fin k0_t2_loop.trips, ∀ a, (k0_off42 k0_t2) a + S1x1x16.size a ≤ S4x32x224.size a
  k0_off43_inb : ∀ k0_t2 : Fin k0_t2_loop.trips, ∀ a, (k0_off43 k0_t2) a + S1x1x16.size a ≤ S4x32x224.size a
  k0_off44_inb : ∀ k0_t2 : Fin k0_t2_loop.trips, ∀ a, (k0_off44 k0_t2) a + S1x1x16.size a ≤ S4x32x224.size a
  k0_off45_inb : ∀ k0_t2 : Fin k0_t2_loop.trips, ∀ a, (k0_off45 k0_t2) a + S1x1x16.size a ≤ S4x32x224.size a
  k0_off46_inb : ∀ k0_t2 : Fin k0_t2_loop.trips, ∀ a, (k0_off46 k0_t2) a + S1x1x16.size a ≤ S4x32x224.size a
  k0_off47_inb : ∀ k0_t2 : Fin k0_t2_loop.trips, ∀ a, (k0_off47 k0_t2) a + S1x1x16.size a ≤ S4x32x224.size a
  k0_off48_inb : ∀ k0_t2 : Fin k0_t2_loop.trips, ∀ a, (k0_off48 k0_t2) a + S1x1x16.size a ≤ S4x32x224.size a
  k0_off49_inb : ∀ k0_t2 : Fin k0_t2_loop.trips, ∀ a, (k0_off49 k0_t2) a + S1x1x16.size a ≤ S4x32x224.size a
  k0_off50_inb : ∀ k0_t2 : Fin k0_t2_loop.trips, ∀ a, (k0_off50 k0_t2) a + S1x1x16.size a ≤ S4x32x224.size a
  k0_off51_inb : ∀ k0_t2 : Fin k0_t2_loop.trips, ∀ a, (k0_off51 k0_t2) a + S1x1x16.size a ≤ S4x32x224.size a
  k0_off52_inb : ∀ k0_t2 : Fin k0_t2_loop.trips, ∀ a, (k0_off52 k0_t2) a + S1x1x16.size a ≤ S4x32x224.size a
  k0_off53_inb : ∀ k0_t2 : Fin k0_t2_loop.trips, ∀ a, (k0_off53 k0_t2) a + S1x1x16.size a ≤ S4x32x224.size a
  k0_off54_inb : ∀ k0_t2 : Fin k0_t2_loop.trips, ∀ a, (k0_off54 k0_t2) a + S1x1x16.size a ≤ S4x32x224.size a
  k0_off55_inb : ∀ k0_t2 : Fin k0_t2_loop.trips, ∀ a, (k0_off55 k0_t2) a + S1x1x16.size a ≤ S4x32x224.size a
  k0_off56_inb : ∀ k0_t2 : Fin k0_t2_loop.trips, ∀ a, (k0_off56 k0_t2) a + S1x1x16.size a ≤ S4x32x224.size a
  k0_off57_inb : ∀ k0_t2 : Fin k0_t2_loop.trips, ∀ a, (k0_off57 k0_t2) a + S1x1x16.size a ≤ S4x32x224.size a
  k0_off58_inb : ∀ (i : grid0.Coords) (k0_t1 : Fin k0_t1_loop.trips), ∀ (r : Fin 2), ∀ a, (k0_off58 i k0_t1 (BitVec.ofNat 32 r.val)) a + S4x32x224.size a ≤ S1536x224x224.size a
  k0_off59_inb : ∀ (i : grid0.Coords) (k0_t1 : Fin k0_t1_loop.trips), ∀ (k0_h2 : k0_cond2 k0_t1 = 1#1), ∀ a, (k0_off59 i k0_t1) a + S4x32x224.size a ≤ S1536x224x224.size a
  k0_t3_ok : k0_t3_loop.OK
  k0_off60_inb : ∀ k0_t3 : Fin k0_t3_loop.trips, ∀ a, (k0_off60 k0_t3) a + S1x1x16.size a ≤ S4x32x224.size a
  k0_off61_inb : ∀ k0_t3 : Fin k0_t3_loop.trips, ∀ a, (k0_off61 k0_t3) a + S1x1x16.size a ≤ S4x32x224.size a
  k0_off62_inb : ∀ k0_t3 : Fin k0_t3_loop.trips, ∀ a, (k0_off62 k0_t3) a + S1x1x16.size a ≤ S4x32x224.size a
  k0_off63_inb : ∀ k0_t3 : Fin k0_t3_loop.trips, ∀ a, (k0_off63 k0_t3) a + S1x1x16.size a ≤ S4x32x224.size a
  k0_off64_inb : ∀ k0_t3 : Fin k0_t3_loop.trips, ∀ a, (k0_off64 k0_t3) a + S1x1x16.size a ≤ S4x32x224.size a
  k0_off65_inb : ∀ k0_t3 : Fin k0_t3_loop.trips, ∀ a, (k0_off65 k0_t3) a + S1x1x16.size a ≤ S4x32x224.size a
  k0_off66_inb : ∀ k0_t3 : Fin k0_t3_loop.trips, ∀ a, (k0_off66 k0_t3) a + S1x1x16.size a ≤ S4x32x224.size a
  k0_off67_inb : ∀ k0_t3 : Fin k0_t3_loop.trips, ∀ a, (k0_off67 k0_t3) a + S1x1x16.size a ≤ S4x32x224.size a
  k0_off68_inb : ∀ k0_t3 : Fin k0_t3_loop.trips, ∀ a, (k0_off68 k0_t3) a + S1x1x16.size a ≤ S4x32x224.size a
  k0_off69_inb : ∀ k0_t3 : Fin k0_t3_loop.trips, ∀ a, (k0_off69 k0_t3) a + S1x1x16.size a ≤ S4x32x224.size a
  k0_off70_inb : ∀ k0_t3 : Fin k0_t3_loop.trips, ∀ a, (k0_off70 k0_t3) a + S1x1x16.size a ≤ S4x32x224.size a
  k0_off71_inb : ∀ k0_t3 : Fin k0_t3_loop.trips, ∀ a, (k0_off71 k0_t3) a + S1x1x16.size a ≤ S4x32x224.size a
  k0_off72_inb : ∀ k0_t3 : Fin k0_t3_loop.trips, ∀ a, (k0_off72 k0_t3) a + S1x1x16.size a ≤ S4x32x224.size a
  k0_off73_inb : ∀ k0_t3 : Fin k0_t3_loop.trips, ∀ a, (k0_off73 k0_t3) a + S1x1x16.size a ≤ S4x32x224.size a
  k0_off74_inb : ∀ k0_t3 : Fin k0_t3_loop.trips, ∀ a, (k0_off74 k0_t3) a + S1x1x16.size a ≤ S4x32x224.size a
  k0_off75_inb : ∀ k0_t3 : Fin k0_t3_loop.trips, ∀ a, (k0_off75 k0_t3) a + S1x1x16.size a ≤ S4x32x224.size a
  k0_off76_inb : ∀ k0_t3 : Fin k0_t3_loop.trips, ∀ a, (k0_off76 k0_t3) a + S1x1x16.size a ≤ S4x32x224.size a
  k0_off77_inb : ∀ k0_t3 : Fin k0_t3_loop.trips, ∀ a, (k0_off77 k0_t3) a + S1x1x16.size a ≤ S4x32x224.size a
  k0_off78_inb : ∀ k0_t3 : Fin k0_t3_loop.trips, ∀ a, (k0_off78 k0_t3) a + S1x1x16.size a ≤ S4x32x224.size a
  k0_off79_inb : ∀ k0_t3 : Fin k0_t3_loop.trips, ∀ a, (k0_off79 k0_t3) a + S1x1x16.size a ≤ S4x32x224.size a
  k0_off80_inb : ∀ k0_t3 : Fin k0_t3_loop.trips, ∀ a, (k0_off80 k0_t3) a + S1x1x16.size a ≤ S4x32x224.size a
  k0_off81_inb : ∀ k0_t3 : Fin k0_t3_loop.trips, ∀ a, (k0_off81 k0_t3) a + S1x1x16.size a ≤ S4x32x224.size a
  k0_off82_inb : ∀ k0_t3 : Fin k0_t3_loop.trips, ∀ a, (k0_off82 k0_t3) a + S1x1x16.size a ≤ S4x32x224.size a
  k0_off83_inb : ∀ k0_t3 : Fin k0_t3_loop.trips, ∀ a, (k0_off83 k0_t3) a + S1x1x16.size a ≤ S4x32x224.size a
  k0_off84_inb : ∀ k0_t3 : Fin k0_t3_loop.trips, ∀ a, (k0_off84 k0_t3) a + S1x1x16.size a ≤ S4x32x224.size a
  k0_off85_inb : ∀ k0_t3 : Fin k0_t3_loop.trips, ∀ a, (k0_off85 k0_t3) a + S1x1x16.size a ≤ S4x32x224.size a
  k0_off86_inb : ∀ k0_t3 : Fin k0_t3_loop.trips, ∀ a, (k0_off86 k0_t3) a + S1x1x16.size a ≤ S4x32x224.size a
  k0_off87_inb : ∀ k0_t3 : Fin k0_t3_loop.trips, ∀ a, (k0_off87 k0_t3) a + S1x1x16.size a ≤ S4x32x224.size a
  k0_off88_inb : ∀ k0_t3 : Fin k0_t3_loop.trips, ∀ a, (k0_off88 k0_t3) a + S1x1x16.size a ≤ S4x32x224.size a
  k0_off89_inb : ∀ k0_t3 : Fin k0_t3_loop.trips, ∀ a, (k0_off89 k0_t3) a + S1x1x16.size a ≤ S4x32x224.size a
  k0_off90_inb : ∀ k0_t3 : Fin k0_t3_loop.trips, ∀ a, (k0_off90 k0_t3) a + S1x1x16.size a ≤ S4x32x224.size a
  k0_off91_inb : ∀ k0_t3 : Fin k0_t3_loop.trips, ∀ a, (k0_off91 k0_t3) a + S1x1x16.size a ≤ S4x32x224.size a
  k0_off92_inb : ∀ k0_t3 : Fin k0_t3_loop.trips, ∀ a, (k0_off92 k0_t3) a + S1x1x16.size a ≤ S4x32x224.size a
  k0_off93_inb : ∀ k0_t3 : Fin k0_t3_loop.trips, ∀ a, (k0_off93 k0_t3) a + S1x1x16.size a ≤ S4x32x224.size a
  k0_off94_inb : ∀ k0_t3 : Fin k0_t3_loop.trips, ∀ a, (k0_off94 k0_t3) a + S1x1x16.size a ≤ S4x32x224.size a
  k0_off95_inb : ∀ k0_t3 : Fin k0_t3_loop.trips, ∀ a, (k0_off95 k0_t3) a + S1x1x16.size a ≤ S4x32x224.size a
  k0_off96_inb : ∀ k0_t3 : Fin k0_t3_loop.trips, ∀ a, (k0_off96 k0_t3) a + S1x1x16.size a ≤ S4x32x224.size a
  k0_off97_inb : ∀ k0_t3 : Fin k0_t3_loop.trips, ∀ a, (k0_off97 k0_t3) a + S1x1x16.size a ≤ S4x32x224.size a
  k0_off98_inb : ∀ k0_t3 : Fin k0_t3_loop.trips, ∀ a, (k0_off98 k0_t3) a + S1x1x16.size a ≤ S4x32x224.size a
  k0_off99_inb : ∀ k0_t3 : Fin k0_t3_loop.trips, ∀ a, (k0_off99 k0_t3) a + S1x1x16.size a ≤ S4x32x224.size a
  k0_off100_inb : ∀ k0_t3 : Fin k0_t3_loop.trips, ∀ a, (k0_off100 k0_t3) a + S1x1x16.size a ≤ S4x32x224.size a
  k0_off101_inb : ∀ k0_t3 : Fin k0_t3_loop.trips, ∀ a, (k0_off101 k0_t3) a + S1x1x16.size a ≤ S4x32x224.size a
  k0_off102_inb : ∀ k0_t3 : Fin k0_t3_loop.trips, ∀ a, (k0_off102 k0_t3) a + S1x1x16.size a ≤ S4x32x224.size a
  k0_off103_inb : ∀ k0_t3 : Fin k0_t3_loop.trips, ∀ a, (k0_off103 k0_t3) a + S1x1x16.size a ≤ S4x32x224.size a
  k0_off104_inb : ∀ k0_t3 : Fin k0_t3_loop.trips, ∀ a, (k0_off104 k0_t3) a + S1x1x16.size a ≤ S4x32x224.size a
  k0_off105_inb : ∀ k0_t3 : Fin k0_t3_loop.trips, ∀ a, (k0_off105 k0_t3) a + S1x1x16.size a ≤ S4x32x224.size a
  k0_off106_inb : ∀ k0_t3 : Fin k0_t3_loop.trips, ∀ a, (k0_off106 k0_t3) a + S1x1x16.size a ≤ S4x32x224.size a
  k0_off107_inb : ∀ k0_t3 : Fin k0_t3_loop.trips, ∀ a, (k0_off107 k0_t3) a + S1x1x16.size a ≤ S4x32x224.size a
  k0_off108_inb : ∀ k0_t3 : Fin k0_t3_loop.trips, ∀ a, (k0_off108 k0_t3) a + S1x1x16.size a ≤ S4x32x224.size a
  k0_off109_inb : ∀ k0_t3 : Fin k0_t3_loop.trips, ∀ a, (k0_off109 k0_t3) a + S1x1x16.size a ≤ S4x32x224.size a
  k0_off110_inb : ∀ k0_t3 : Fin k0_t3_loop.trips, ∀ a, (k0_off110 k0_t3) a + S1x1x16.size a ≤ S4x32x224.size a
  k0_off111_inb : ∀ k0_t3 : Fin k0_t3_loop.trips, ∀ a, (k0_off111 k0_t3) a + S1x1x16.size a ≤ S4x32x224.size a
  k0_off112_inb : ∀ k0_t3 : Fin k0_t3_loop.trips, ∀ a, (k0_off112 k0_t3) a + S1x1x16.size a ≤ S4x32x224.size a
  k0_off113_inb : ∀ k0_t3 : Fin k0_t3_loop.trips, ∀ a, (k0_off113 k0_t3) a + S1x1x16.size a ≤ S4x32x224.size a
  k0_off114_inb : ∀ k0_t3 : Fin k0_t3_loop.trips, ∀ a, (k0_off114 k0_t3) a + S1x1x16.size a ≤ S4x32x224.size a
  k0_off115_inb : ∀ k0_t3 : Fin k0_t3_loop.trips, ∀ a, (k0_off115 k0_t3) a + S1x1x16.size a ≤ S4x32x224.size a
  k0_off116_inb : ∀ (i : grid0.Coords) (k0_t1 : Fin k0_t1_loop.trips), ∀ (k0_h4 : k0_cond4 k0_t1 = 1#1), ∀ a, (k0_off116 i k0_t1) a + S4x32x224.size a ≤ S1536x224x224.size a

variable [Facts₀]

abbrev cc0_scratch4 : DmaSems sig S_ := SemArray.consecutive 0 S_ hcc0_scratch4
abbrev cc0_scratch5 : DmaSems sig S_ := SemArray.consecutive 1 S_ hcc0_scratch5
abbrev cc0_scratch6 : DmaSems sig S_ := SemArray.consecutive 2 S_ hcc0_scratch6
abbrev cc0_scratch7 : DmaSems sig S_ := SemArray.consecutive 3 S_ hcc0_scratch7

class Facts : Prop extends Facts₀ where

variable [Facts]
-- ==== ReferenceIdeal.lean ====
abbrev S4x384x224x224 : Shape := ⟨4, ![4, 384, 224, 224]⟩
abbrev S4x96x4x224x224 : Shape := ⟨5, ![4, 96, 4, 224, 224]⟩
abbrev S_ : Shape := ⟨0, ![]⟩
abbrev S4x96x224x224 : Shape := ⟨4, ![4, 96, 224, 224]⟩
abbrev S4x96x1x224x224 : Shape := ⟨5, ![4, 96, 1, 224, 224]⟩

abbrev nBuf : Space → Nat
  | .hbm => 11
  | .vmem => 0
  | .smem => 0
  | _ => 0

abbrev bufTy : (tb : Table) → Fin (tcTables nBuf tb) → BufTy
  | .hbm, ⟨0, _⟩ => ⟨S4x384x224x224, .f32⟩
  | .hbm, ⟨1, _⟩ => ⟨S4x96x4x224x224, .f32⟩
  | .hbm, ⟨2, _⟩ => ⟨S_, .f32⟩
  | .hbm, ⟨3, _⟩ => ⟨S4x96x224x224, .f32⟩
  | .hbm, ⟨4, _⟩ => ⟨S4x96x1x224x224, .f32⟩
  | .hbm, ⟨5, _⟩ => ⟨S4x96x4x224x224, .f32⟩
  | .hbm, ⟨6, _⟩ => ⟨S4x96x4x224x224, .i1⟩
  | .hbm, ⟨7, _⟩ => ⟨S_, .f32⟩
  | .hbm, ⟨8, _⟩ => ⟨S4x96x4x224x224, .f32⟩
  | .hbm, ⟨9, _⟩ => ⟨S4x96x4x224x224, .f32⟩
  | .hbm, ⟨10, _⟩ => ⟨S4x384x224x224, .f32⟩
  | _, _ => ⟨S4x384x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]

class Facts₀ : Prop where
  shapeCasts_S4x384x224x224_S4x96x4x224x224 : S4x384x224x224.ShapeCasts S4x96x4x224x224
  reducesTo_S4x96x4x224x224_S4x96x224x224_d2 : S4x96x4x224x224.ReducesTo [2] S4x96x224x224
  h_S_ : 0 < S_.numel
  bcast_S4x96x224x224_S4x96x1x224x224_0_1_3_4 : S4x96x224x224.BroadcastsInDim S4x96x1x224x224 (![0, 1, 3, 4] : Fin 4 → Fin S4x96x1x224x224.rank)
  bcast_S4x96x1x224x224_S4x96x4x224x224_0_1_2_3_4 : S4x96x1x224x224.BroadcastsInDim S4x96x4x224x224 (![0, 1, 2, 3, 4] : Fin 5 → Fin S4x96x4x224x224.rank)
  bcast_S_S4x96x4x224x224 : S_.BroadcastsInDim S4x96x4x224x224 (![] : Fin 0 → Fin S4x96x4x224x224.rank)
  shapeCasts_S4x96x4x224x224_S4x384x224x224 : S4x96x4x224x224.ShapeCasts S4x384x224x224

variable [Facts₀]

class Facts : Prop extends Facts₀ where

variable [Facts]
-- ==== Proof.Spec.lean ====
import Idealize.ShloMosaic.Lib.ValueIdx

noncomputable section

namespace Cert.Spec

open Idealize.ShloMosaic Idealize.ShloMosaic.ValueIdx

variable {F : FTy → Type} [FloatOps F]

abbrev A3 : Shape := ⟨3, ![1536, 224, 224]⟩
abbrev B3 : Shape := ⟨3, ![4, 32, 224]⟩

/-- The word zero as a float. -/
def zero : F .f32 := Scalar.ofBits .f32 0x00000000#32

/-- The largest of a group's four entries, taken in two pairs. -/
def gmax (a0 a1 a2 a3 : F .f32) : F .f32 :=
  FloatOps.maximumf (FloatOps.maximumf a0 a1) (FloatOps.maximumf a2 a3)

/-- An entry survives where it equals its group's maximum and is zero elsewhere. -/
def keep (a m : F .f32) : F .f32 := Scalar.select (FloatOps.cmpf .oeq a m) a zero

/-- The rule on one block of four rows: the group of an entry is the block's four rows at its position. -/
def blockFn (f : B3.Idx → F .f32) : B3.Idx → F .f32 := fun y =>
  keep (f y) (gmax (f (ix3 (0 : Fin 4) (y 1 : Fin 32) (y 2 : Fin 224))) (f (ix3 (1 : Fin 4) (y 1 : Fin 32) (y 2 : Fin 224)))
    (f (ix3 (2 : Fin 4) (y 1 : Fin 32) (y 2 : Fin 224))) (f (ix3 (3 : Fin 4) (y 1 : Fin 32) (y 2 : Fin 224))))

/-- Row `j` of the group that row `r` belongs to. -/
def grow (r : Fin 1536) (j : Fin 4) : Fin 1536 := ⟨4 * (r.val / 4) + j.val, by omega⟩

/-- The rule on the array of 1536 rows: the group of row r is the rows 4 (r / 4) + j, j below 4. -/
def arrFn (x : A3.Idx → F .f32) : A3.Idx → F .f32 := fun y =>
  keep (x y) (gmax (x (ix3 (grow (y 0) 0) (y 1 : Fin 224) (y 2 : Fin 224))) (x (ix3 (grow (y 0) 1) (y 1 : Fin 224) (y 2 : Fin 224)))
    (x (ix3 (grow (y 0) 2) (y 1 : Fin 224) (y 2 : Fin 224))) (x (ix3 (grow (y 0) 3) (y 1 : Fin 224) (y 2 : Fin 224))))

abbrev A4 : Shape := ⟨4, ![4, 384, 224, 224]⟩
theorem casts43 : A4.ShapeCasts A3 := by decide
theorem casts34 : A3.ShapeCasts A4 := by decide

/-- The rule on the four-axis array: flatten batch and channel, apply the rule, restore the axes. -/
def outFn (x : A4.Idx → F .f32) : A4.Idx → F .f32 := shapeCast A4 (arrFn (shapeCast A3 x casts43)) casts34

end Cert.Spec

end
-- ==== Proof.RefValue.lean ====
import proofs.«204259_g20779051778567_cont_8to1_992_21_alg».proof.Proof.Gen.ReferenceIdeal.Run
import proofs.«204259_g20779051778567_cont_8to1_992_21_alg».proof.Proof.Gen.ReferenceIdeal.Read
import proofs.«204259_g20779051778567_cont_8to1_992_21_alg».proof.Proof.Spec
import Idealize.ShloMosaic.Lib.ValueIdx
import Idealize.ShloMosaic.Lib.Pipeline.Value
import Idealize.ShloMosaic.PureOps.Ideal.Laws
import Idealize.ShloMosaic.PureOps.Reduce

noncomputable section

namespace Cert.RefValue

open Idealize.ShloMosaic Idealize.ShloMosaic.ValueIdx
open Cert.ReferenceIdeal Cert.ReferenceIdeal.Gen Cert.ReferenceIdeal.Read

/-- The group of a channel, and the channel's place in it. -/
def grp (c : Fin 384) : Fin 96 := ⟨c.val / 4, by omega⟩
def plc (c : Fin 384) : Fin 4 := ⟨c.val % 4, Nat.mod_lt _ (by decide)⟩

/-- The last reshape reads the five-axis array at (b, c / 4, c % 4, w, h). -/
theorem idx7_eq (b : Fin 4) (c : Fin 384) (w h : Fin 224) :
    idx_main_v7 (ix4 b c w h) = ix5 b (grp c) (plc c) w h := by
  have hb := b.isLt; have hc := c.isLt; have hw := w.isLt; have hh := h.isLt
  funext a
  match a with
  | ⟨0, _⟩ => exact Fin.ext (by show (((b.val * 384 + c.val) * 224 + w.val) * 224 + h.val) / 19267584 = b.val; omega)
  | ⟨1, _⟩ => exact Fin.ext (by show (((b.val * 384 + c.val) * 224 + w.val) * 224 + h.val) / 200704 % 96 = c.val / 4; omega)
  | ⟨2, _⟩ => exact Fin.ext (by show (((b.val * 384 + c.val) * 224 + w.val) * 224 + h.val) / 50176 % 4 = c.val % 4; omega)
  | ⟨3, _⟩ => exact Fin.ext (by show (((b.val * 384 + c.val) * 224 + w.val) * 224 + h.val) / 224 % 224 = w.val; omega)
  | ⟨4, _⟩ => exact Fin.ext (by show (((b.val * 384 + c.val) * 224 + w.val) * 224 + h.val) % 224 = h.val; omega)

/-- The first reshape reads the four-axis array at (b, 4 g + j, w, h). -/
theorem idx0_eq (b : Fin 4) (g : Fin 96) (j : Fin 4) (w h : Fin 224) :
    idx_main_v0 (ix5 b g j w h) = ix4 b (⟨4 * g.val + j.val, by omega⟩ : Fin 384) w h := by
  have hb := b.isLt; have hg := g.isLt; have hj := j.isLt; have hw := w.isLt; have hh := h.isLt
  funext a
  match a with
  | ⟨0, _⟩ => exact Fin.ext (by show ((((b.val * 96 + g.val) * 4 + j.val) * 224 + w.val) * 224 + h.val) / 19267584 = b.val; omega)
  | ⟨1, _⟩ => exact Fin.ext (by show ((((b.val * 96 + g.val) * 4 + j.val) * 224 + w.val) * 224 + h.val) / 50176 % 384 = 4 * g.val + j.val; omega)
  | ⟨2, _⟩ => exact Fin.ext (by show ((((b.val * 96 + g.val) * 4 + j.val) * 224 + w.val) * 224 + h.val) / 224 % 224 = w.val; omega)
  | ⟨3, _⟩ => exact Fin.ext (by show ((((b.val * 96 + g.val) * 4 + j.val) * 224 + w.val) * 224 + h.val) % 224 = h.val; omega)

/-- Channel `j` of group `g`. -/
def chan (g : Fin 96) (j : Fin 4) : Fin 384 := ⟨4 * g.val + j.val, by omega⟩

theorem chan_grp_plc (c : Fin 384) : chan (grp c) (plc c) = c :=
  Fin.ext (by show 4 * (c.val / 4) + c.val % 4 = c.val; omega)

theorem idx23_eq (b : Fin 4) (g : Fin 96) (j : Fin 4) (w h : Fin 224) :
    idx_main_v2 (idx_main_v3 (ix5 b g j w h)) = ix4 b g w h := by
  funext a
  match a with
  | ⟨0, _⟩ => rfl
  | ⟨1, _⟩ => rfl
  | ⟨2, _⟩ => rfl
  | ⟨3, _⟩ => rfl

theorem reduces2 : S4x96x4x224x224.Reduces [2] S4x96x224x224 := by decide

theorem lift_eq (b : Fin 4) (g : Fin 96) (w h : Fin 224) (k : Fin 4) :
    reduces2.lift (ix4 b g w h) k = ix5 b g k w h := by
  funext a
  apply Fin.ext
  match a with
  | ⟨0, _⟩ => rfl
  | ⟨1, _⟩ => rfl
  | ⟨2, _⟩ => rfl
  | ⟨3, _⟩ => rfl
  | ⟨4, _⟩ => rfl

theorem fold_fin4 {α : Type} (op : α → α → α) [Std.Commutative op] [Std.Associative op] (e : α) (f : Fin 4 → α) :
    (Finset.univ : Finset (Fin 4)).fold op e f = op (f 0) (op (f 1) (op (f 2) (op (f 3) e))) := by
  have hu : (Finset.univ : Finset (Fin 4)) = insert 0 (insert 1 (insert 2 {3})) := by decide
  rw [hu, Finset.fold_insert (by decide), Finset.fold_insert (by decide), Finset.fold_insert (by decide),
    Finset.fold_singleton]

theorem ofBits_negInf : Ideal.ofBits .f32 0xFF800000#32 = ⊥ := by simp [Ideal.ofBits, Ideal.ieee]

theorem max4_bot (a0 a1 a2 a3 : EReal) :
    max a0 (max a1 (max a2 (max a3 ⊥))) = max (max a0 a1) (max a2 a3) := by
  rw [max_bot_right, max_assoc]

/-- The reduction at (b, g, w, h) is the largest of group g's four entries there: a maximum from the least element. -/
theorem v1_apply (x : (⟨S4x384x224x224, .f32⟩ : BufTy).Contents (Elt Ideal)) (b : Fin 4) (g : Fin 96) (w h : Fin 224) :
    val_main_v1 (F := Ideal) x (ix4 b g w h)
      = Cert.Spec.gmax (F := Ideal) (x (ix4 b (chan g 0) w h)) (x (ix4 b (chan g 1) w h))
          (x (ix4 b (chan g 2) w h)) (x (ix4 b (chan g 3) w h)) := by
  unfold val_main_v1
  rw [Host.reduce_eq_fold_single FloatOps.maximumf _ _ reducesTo_S4x96x4x224x224_S4x96x224x224_d2 reduces2 h_S_]
  refine (fold_fin4 _ _ _).trans ?_
  show max (val_main_v0 (F := Ideal) x (reduces2.lift (ix4 b g w h) (0 : Fin 4)))
      (max (val_main_v0 (F := Ideal) x (reduces2.lift (ix4 b g w h) (1 : Fin 4)))
        (max (val_main_v0 (F := Ideal) x (reduces2.lift (ix4 b g w h) (2 : Fin 4)))
          (max (val_main_v0 (F := Ideal) x (reduces2.lift (ix4 b g w h) (3 : Fin 4))) (Ideal.ofBits .f32 0xFF800000#32)))) = _
  rw [lift_eq, lift_eq, lift_eq, lift_eq, val_main_v0_apply, val_main_v0_apply, val_main_v0_apply, val_main_v0_apply,
    idx0_eq, idx0_eq, idx0_eq, idx0_eq, ofBits_negInf, max4_bot]
  rfl

/-- The reference at an entry: the entry where it is its channel group's maximum, else zero. -/
theorem ref_apply (x : (⟨S4x384x224x224, .f32⟩ : BufTy).Contents (Elt Ideal)) (b : Fin 4) (c : Fin 384) (w h : Fin 224) :
    val_main_v7 (F := Ideal) x (ix4 b c w h)
      = Cert.Spec.keep (F := Ideal) (x (ix4 b c w h))
          (Cert.Spec.gmax (F := Ideal) (x (ix4 b (chan (grp c) 0) w h)) (x (ix4 b (chan (grp c) 1) w h))
            (x (ix4 b (chan (grp c) 2) w h)) (x (ix4 b (chan (grp c) 3) w h))) := by
  rw [val_main_v7_apply, idx7_eq, val_main_v6_apply, val_main_v4_apply, val_main_v0_apply, idx0_eq,
    val_main_v3_apply, val_main_v2_apply, idx23_eq, v1_apply, val_main_v5_apply, val_main_cst_0_apply]
  have hc : (⟨4 * (grp c).val + (plc c).val, by have := (grp c).isLt; have := (plc c).isLt; omega⟩ : Fin 384) = c :=
    chan_grp_plc c
  rw [hc]
  rfl

section Rule
variable {F : FTy → Type} [FloatOps F]

theorem flat_apply (x : Cert.Spec.A4.Idx → F .f32) (r : Fin 1536) (w h : Fin 224) :
    shapeCast Cert.Spec.A3 x Cert.Spec.casts43 (ix3 r w h)
      = x (ix4 (⟨r.val / 384, by omega⟩ : Fin 4) (⟨r.val % 384, Nat.mod_lt _ (by decide)⟩ : Fin 384) w h) := by
  have hr := r.isLt; have hw := w.isLt; have hh := h.isLt
  exact shapeCast_apply x Cert.Spec.casts43 _ _ (by
    rw [Shape.rowMajor_val_four, Shape.rowMajor_val_three]
    show (((r.val / 384) * 384 + r.val % 384) * 224 + w.val) * 224 + h.val = (r.val * 224 + w.val) * 224 + h.val
    omega)

def row (b : Fin 4) (c : Fin 384) : Fin 1536 := ⟨384 * b.val + c.val, by omega⟩

theorem flat_row (x : Cert.Spec.A4.Idx → F .f32) (r : Fin 1536) (b : Fin 4) (c : Fin 384) (hr : r.val = 384 * b.val + c.val)
    (w h : Fin 224) : shapeCast Cert.Spec.A3 x Cert.Spec.casts43 (ix3 r w h) = x (ix4 b c w h) := by
  have hc := c.isLt
  rw [flat_apply]
  have e1 : (⟨r.val / 384, by omega⟩ : Fin 4) = b := Fin.ext (by show r.val / 384 = b.val; omega)
  have e2 : (⟨r.val % 384, Nat.mod_lt _ (by decide)⟩ : Fin 384) = c := Fin.ext (by show r.val % 384 = c.val; omega)
  rw [e1, e2]

theorem grow_row (b : Fin 4) (c : Fin 384) (j : Fin 4) :
    (Cert.Spec.grow (row b c) j).val = 384 * b.val + (chan (grp c) j).val := by
  have hc := c.isLt; have hj := j.isLt
  show 4 * ((384 * b.val + c.val) / 4) + j.val = 384 * b.val + (4 * (c.val / 4) + j.val)
  omega

/-- The rule on the four-axis array at an entry: row 384 b + c has its group at the channels 4 (c / 4) + j. -/
theorem spec_apply (x : Cert.Spec.A4.Idx → F .f32) (b : Fin 4) (c : Fin 384) (w h : Fin 224) :
    Cert.Spec.outFn x (ix4 b c w h)
      = Cert.Spec.keep (x (ix4 b c w h))
          (Cert.Spec.gmax (x (ix4 b (chan (grp c) 0) w h)) (x (ix4 b (chan (grp c) 1) w h))
            (x (ix4 b (chan (grp c) 2) w h)) (x (ix4 b (chan (grp c) 3) w h))) := by
  have hb := b.isLt; have hc := c.isLt; have hw := w.isLt; have hh := h.isLt
  unfold Cert.Spec.outFn
  rw [shapeCast_apply _ Cert.Spec.casts34 (ix4 b c w h) (ix3 (row b c) w h) (by
    rw [Shape.rowMajor_val_three, Shape.rowMajor_val_four]
    show ((384 * b.val + c.val) * 224 + w.val) * 224 + h.val = ((b.val * 384 + c.val) * 224 + w.val) * 224 + h.val
    omega)]
  show Cert.Spec.keep (shapeCast Cert.Spec.A3 x Cert.Spec.casts43 (ix3 (row b c) w h))
      (Cert.Spec.gmax (shapeCast Cert.Spec.A3 x Cert.Spec.casts43 (ix3 (Cert.Spec.grow (row b c) 0) w h))
        (shapeCast Cert.Spec.A3 x Cert.Spec.casts43 (ix3 (Cert.Spec.grow (row b c) 1) w h))
        (shapeCast Cert.Spec.A3 x Cert.Spec.casts43 (ix3 (Cert.Spec.grow (row b c) 2) w h))
        (shapeCast Cert.Spec.A3 x Cert.Spec.casts43 (ix3 (Cert.Spec.grow (row b c) 3) w h))) = _
  rw [flat_row x (row b c) b c rfl, flat_row x _ b _ (grow_row b c 0), flat_row x _ b _ (grow_row b c 1),
    flat_row x _ b _ (grow_row b c 2), flat_row x _ b _ (grow_row b c 3)]

end Rule

/-- At the ideal values the reference's result is the channel-group rule. -/
theorem ref_value (x : (⟨S4x384x224x224, .f32⟩ : BufTy).Contents (Elt Ideal)) :
    val_main_v7 (F := Ideal) x = Cert.Spec.outFn (F := Ideal) x := by
  funext i
  obtain ⟨b, c, w, h, rfl⟩ : ∃ (b : Fin 4) (c : Fin 384) (w h : Fin 224), i = ix4 b c w h :=
    ⟨_, _, _, _, eq_ix4 i⟩
  rw [ref_apply, spec_apply]

end Cert.RefValue

end
-- ==== Proof.KernelIdealHand.Common.lean ====
import proofs.«204259_g20779051778567_cont_8to1_992_21_alg».proof.Proof.Gen.KernelIdeal
import proofs.«204259_g20779051778567_cont_8to1_992_21_alg».proof.Proof.Gen.KernelIdeal.Skeleton
import proofs.«204259_g20779051778567_cont_8to1_992_21_alg».proof.Proof.Spec
import Idealize.ShloMosaic.Lib.SparseCore.Launch
import Idealize.ShloMosaic.Lib.StableHlo.Run
import Idealize.ShloMosaic.Lib.Pipeline.Kit
import Idealize.ShloMosaic.Lib.Tactic

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

abbrev EH : Emb UH (MT nD τ sig (HIx 1) (Elt F) ℕ UU ℕ) := embL

abbrev aLoc (d : Dev nD) : Loc nD τ sig := (SparseCore.T d).loc main_arg0
abbrev xLoc (d : Dev nD) : Loc nD τ sig := (SparseCore.T d).loc main_v0
abbrev oLoc (d : Dev nD) : Loc nD τ sig := (SparseCore.T d).loc main_v1
abbrev rLoc (d : Dev nD) : Loc nD τ sig := (SparseCore.T d).loc main_v2

abbrev xV : Memref sig .scVector .hbm S1536x224x224 .f32 := Memref.whole main_v0_scv
abbrev oV : Memref sig .scVector .hbm S1536x224x224 .f32 := Memref.whole main_v1_scv
abbrev ibA : Memref sig .scVector .vmem S4x32x224 .f32 := Memref.whole cc0_scratch0
abbrev ibB : Memref sig .scVector .vmem S4x32x224 .f32 := Memref.whole cc0_scratch1
abbrev obA : Memref sig .scVector .vmem S4x32x224 .f32 := Memref.whole cc0_scratch2
abbrev obB : Memref sig .scVector .vmem S4x32x224 .f32 := Memref.whole cc0_scratch3

/-- The argument with batch and channel flattened. -/
def x3 (m : (ℓ : Loc nD τ sig) → Buf (Elt F) ℓ) (d : Dev nD) : Buf (Elt F) (xLoc d) :=
  shapeCast S1536x224x224 (m (aLoc d)) shapeCasts_S4x384x224x224_S1536x224x224

/-- The rule on the flattened argument, and that with batch and channel apart again. -/
def o3 [FloatOps F] (m : (ℓ : Loc nD τ sig) → Buf (Elt F) ℓ) (d : Dev nD) : Buf (Elt F) (oLoc d) :=
  Spec.arrFn (F := F) (x3 m d)
def r4 [FloatOps F] (m : (ℓ : Loc nD τ sig) → Buf (Elt F) ℓ) (d : Dev nD) : Buf (Elt F) (rLoc d) :=
  shapeCast S4x384x224x224 (o3 m d) shapeCasts_S1536x224x224_S4x384x224x224

abbrev cV (L : grid0.Coords) : Fin τ.nSC := (L 0).castLE hcore0
abbrev jV (L : grid0.Coords) : Fin τ.nSub := (L 1).castLE hsub0
/-- Coordinates `L` own the rows whose number divided by 48 is `wid L`. -/
def wid (L : grid0.Coords) : ℕ := 2 * (L 1).val + (L 0).val

/-- The block (0 .. 83) of its owner's 48 rows an entry lies in: 12 groups of four rows by 7 strips of 32 columns. -/
def taskOf (y : S1536x224x224.Idx) : ℕ := ((y 0).val % 48) / 4 * 7 + (y 1).val / 32

/-- The entries owned by number `w`; those in blocks of parity `j`; those of block `t`. -/
def tileSet (w : ℕ) : Finset S1536x224x224.Idx := Finset.univ.filter fun y => (y 0).val / 48 = w
def slotSet (w j : ℕ) : Finset S1536x224x224.Idx := Finset.univ.filter fun y => (y 0).val / 48 = w ∧ taskOf y % 2 = j
def blkSet (w t : ℕ) : Finset S1536x224x224.Idx := Finset.univ.filter fun y => (y 0).val / 48 = w ∧ taskOf y = t

theorem mem_tileSet {w : ℕ} {y : S1536x224x224.Idx} : y ∈ tileSet w ↔ (y 0).val / 48 = w := by simp [tileSet]
theorem mem_slotSet {w j : ℕ} {y : S1536x224x224.Idx} : y ∈ slotSet w j ↔ (y 0).val / 48 = w ∧ taskOf y % 2 = j := by simp [slotSet]
theorem mem_blkSet {w t : ℕ} {y : S1536x224x224.Idx} : y ∈ blkSet w t ↔ (y 0).val / 48 = w ∧ taskOf y = t := by simp [blkSet]

end Cert.KernelIdeal.Hand

end
-- ==== Proof.KernelIdealHand.Geom.lean ====
import proofs.«204259_g20779051778567_cont_8to1_992_21_alg».proof.Proof.KernelIdealHand.Common
import Idealize.ShloMosaic.Lib.Decide

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- The printed two-parameter offsets in closed form: block 2k + r of the owner's rows. -/
theorem off58_eq : ∀ (i : grid0.Coords) (k : Fin k0_t1_loop.trips) (r : Fin 2),
    k0_off58 i k (BitVec.ofNat 32 r.val)
      = ![96 * (i 1).val + 48 * (i 0).val + 4 * ((2 * k.val + r.val) / 7), 32 * ((2 * k.val + r.val) % 7), 0] := by decide +kernel

theorem cond2_iff : ∀ k : Fin k0_t1_loop.trips, k0_cond2 k = 1#1 ↔ k.val < 41 := by decide +kernel
theorem cond4_iff : ∀ k : Fin k0_t1_loop.trips, k0_cond4 k = 1#1 ↔ k.val < 41 := by decide +kernel

theorem trips1 : k0_t1_loop.trips = 42 := by decide +kernel
theorem trips2 : k0_t2_loop.trips = 32 := by decide +kernel
theorem trips3 : k0_t3_loop.trips = 32 := by decide +kernel

theorem wid_eq (L : grid0.Coords) : 96 * (L 1).val + 48 * (L 0).val = 48 * wid L := by
  unfold wid; omega

/-- The 4 x 32 x 224 rectangle at rows 48 w + 4 (t / 7), columns 32 (t % 7) is block `t` of number `w`. -/
theorem set_unit_eq_blk (off : Fin 3 → ℕ) (inb : ∀ a, off a + S4x32x224.size a ≤ S1536x224x224.size a) (w t : ℕ) (ht : t < 84)
    (h : off = ![48 * w + 4 * (t / 7), 32 * (t % 7), 0]) :
    (Rect.unit (s := S1536x224x224) off S4x32x224.size inb).set = blkSet w t := by
  subst h
  ext y
  rw [Rect.mem_set_unit, mem_blkSet]
  unfold taskOf
  have h0 : (y 0).val < 1536 := (y 0).isLt
  have h1 : (y 1).val < 224 := (y 1).isLt
  have h2 : (y 2).val < 224 := (y 2).isLt
  constructor
  · intro hh
    have a0 : 48 * w + 4 * (t / 7) ≤ (y 0).val ∧ (y 0).val < 48 * w + 4 * (t / 7) + 4 := hh 0
    have a1 : 32 * (t % 7) ≤ (y 1).val ∧ (y 1).val < 32 * (t % 7) + 32 := hh 1
    omega
  · intro hh a
    match a with
    | ⟨0, _⟩ =>
      show 48 * w + 4 * (t / 7) ≤ (y 0).val ∧ (y 0).val < 48 * w + 4 * (t / 7) + 4
      omega
    | ⟨1, _⟩ =>
      show 32 * (t % 7) ≤ (y 1).val ∧ (y 1).val < 32 * (t % 7) + 32
      omega
    | ⟨2, _⟩ =>
      show 0 ≤ (y 2).val ∧ (y 2).val < 0 + 224
      omega

theorem blk_subset_slot (w t : ℕ) : blkSet w t ⊆ slotSet w (t % 2) := by
  intro y hy
  rw [mem_blkSet] at hy
  rw [mem_slotSet]
  exact ⟨hy.1, by rw [hy.2]⟩
theorem slot_disjoint (w : ℕ) : Disjoint (slotSet w 0) (slotSet w 1) := by
  rw [Finset.disjoint_left]
  intro y h0 h1
  rw [mem_slotSet] at h0 h1
  omega
theorem slot_union (w : ℕ) : slotSet w 0 ∪ slotSet w 1 = tileSet w := by
  ext y
  rw [Finset.mem_union, mem_slotSet, mem_slotSet, mem_tileSet]
  constructor
  · rintro (h | h) <;> exact h.1
  · intro h
    rcases Nat.mod_two_eq_zero_or_one (taskOf y) with h2 | h2
    · exact .inl ⟨h, h2⟩
    · exact .inr ⟨h, h2⟩
/-- A block starts on a group boundary, so the rule on the block read off the array is the rule on the array there. -/
theorem blk_value [FloatOps F] (x : S1536x224x224.Idx → Elt F .f32) (off : Fin 3 → ℕ)
    (inb : ∀ a, off a + S4x32x224.size a ≤ S1536x224x224.size a) (h4 : 4 ∣ off 0) (z : S4x32x224.Idx) :
    Spec.blockFn (F := F) (fun z' : S4x32x224.Idx => x ((Rect.unit (s := S1536x224x224) off S4x32x224.size inb).emb z')) z
      = Spec.arrFn (F := F) x ((Rect.unit (s := S1536x224x224) off S4x32x224.size inb).emb z) := by
  obtain ⟨q, hq⟩ := h4
  have hz0 : (z 0).val < 4 := (z 0).isLt
  have key : ∀ j : Fin 4,
      (Rect.unit (s := S1536x224x224) off S4x32x224.size inb).emb (ValueIdx.ix3 j (z 1 : Fin 32) (z 2 : Fin 224))
        = ValueIdx.ix3 (Spec.grow ((Rect.unit (s := S1536x224x224) off S4x32x224.size inb).emb z 0) j)
            ((Rect.unit (s := S1536x224x224) off S4x32x224.size inb).emb z 1 : Fin 224)
            ((Rect.unit (s := S1536x224x224) off S4x32x224.size inb).emb z 2 : Fin 224) := by
    intro j
    have hj : j.val < 4 := j.isLt
    funext a
    match a with
    | ⟨0, _⟩ =>
      exact Fin.ext (by
        show off 0 + 1 * j.val = 4 * ((off 0 + 1 * (z 0).val) / 4) + j.val
        omega)
    | ⟨1, _⟩ => rfl
    | ⟨2, _⟩ => rfl
  unfold Spec.blockFn Spec.arrFn
  show Spec.keep _ (Spec.gmax
      (x ((Rect.unit (s := S1536x224x224) off S4x32x224.size inb).emb (ValueIdx.ix3 (0 : Fin 4) (z 1 : Fin 32) (z 2 : Fin 224))))
      (x ((Rect.unit (s := S1536x224x224) off S4x32x224.size inb).emb (ValueIdx.ix3 (1 : Fin 4) (z 1 : Fin 32) (z 2 : Fin 224))))
      (x ((Rect.unit (s := S1536x224x224) off S4x32x224.size inb).emb (ValueIdx.ix3 (2 : Fin 4) (z 1 : Fin 32) (z 2 : Fin 224))))
      (x ((Rect.unit (s := S1536x224x224) off S4x32x224.size inb).emb (ValueIdx.ix3 (3 : Fin 4) (z 1 : Fin 32) (z 2 : Fin 224))))) = _
  rw [key 0, key 1, key 2, key 3]
  rfl

end Cert.KernelIdeal.Hand

end
-- ==== Proof.KernelIdealHand.Geom2.lean ====
import proofs.«204259_g20779051778567_cont_8to1_992_21_alg».proof.Proof.KernelIdealHand.Common
import proofs.«204259_g20779051778567_cont_8to1_992_21_alg».proof.Proof.KernelIdealHand.Geom

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- The entries of number `w` in blocks of parity `j` numbered below `n`, and from `n` on. -/
def slotLT (w j n : ℕ) : Finset S1536x224x224.Idx :=
  Finset.univ.filter fun y => (y 0).val / 48 = w ∧ taskOf y % 2 = j ∧ taskOf y < n
def slotGE (w j n : ℕ) : Finset S1536x224x224.Idx :=
  Finset.univ.filter fun y => (y 0).val / 48 = w ∧ taskOf y % 2 = j ∧ n ≤ taskOf y

theorem mem_slotLT {w j n : ℕ} {y : S1536x224x224.Idx} : y ∈ slotLT w j n ↔ (y 0).val / 48 = w ∧ taskOf y % 2 = j ∧ taskOf y < n := by
  simp [slotLT]
theorem mem_slotGE {w j n : ℕ} {y : S1536x224x224.Idx} : y ∈ slotGE w j n ↔ (y 0).val / 48 = w ∧ taskOf y % 2 = j ∧ n ≤ taskOf y := by
  simp [slotGE]

theorem taskOf_lt (y : S1536x224x224.Idx) : taskOf y < 84 := by
  have h0 : (y 0).val < 1536 := (y 0).isLt
  have h1 : (y 1).val < 224 := (y 1).isLt
  unfold taskOf; omega

theorem slotLT_zero (w j : ℕ) : slotLT w j 0 = ∅ := by
  ext y
  rw [mem_slotLT]
  constructor
  · rintro ⟨-, -, h⟩; omega
  · intro h; simp at h
theorem slotGE_zero (w j : ℕ) : slotGE w j 0 = slotSet w j := by
  ext y
  rw [mem_slotGE, mem_slotSet]
  constructor
  · rintro ⟨a, b, -⟩; exact ⟨a, b⟩
  · rintro ⟨a, b⟩; exact ⟨a, b, Nat.zero_le _⟩
theorem slotLT_all (w j n : ℕ) (h : 84 ≤ n) : slotLT w j n = slotSet w j := by
  ext y
  have hy := taskOf_lt y
  rw [mem_slotLT, mem_slotSet]
  constructor
  · rintro ⟨a, b, -⟩; exact ⟨a, b⟩
  · rintro ⟨a, b⟩; exact ⟨a, b, by omega⟩
theorem slotLT_step (w j n : ℕ) (hn : n % 2 = j) : slotLT w j (n + 2) = slotLT w j n ∪ blkSet w n := by
  ext y
  rw [Finset.mem_union, mem_slotLT, mem_slotLT, mem_blkSet]
  constructor
  · rintro ⟨a, b, c⟩
    by_cases hlt : taskOf y < n
    · exact .inl ⟨a, b, hlt⟩
    · exact .inr ⟨a, by omega⟩
  · rintro (⟨a, b, c⟩ | ⟨a, b⟩)
    · exact ⟨a, b, by omega⟩
    · exact ⟨a, by omega, by omega⟩
theorem slotLT_blk_disjoint (w j n : ℕ) : Disjoint (slotLT w j n) (blkSet w n) := by
  rw [Finset.disjoint_left]
  intro y h1 h2
  rw [mem_slotLT] at h1
  rw [mem_blkSet] at h2
  omega
theorem blk_subset_slotGE (w j n : ℕ) (hn : n % 2 = j) : blkSet w n ⊆ slotGE w j n := by
  intro y hy
  rw [mem_blkSet] at hy
  rw [mem_slotGE]
  exact ⟨hy.1, by omega, by omega⟩
theorem slotGE_sdiff (w j n : ℕ) (hn : n % 2 = j) : slotGE w j n \ blkSet w n = slotGE w j (n + 2) := by
  ext y
  rw [Finset.mem_sdiff, mem_slotGE, mem_slotGE, mem_blkSet]
  constructor
  · rintro ⟨⟨a, b, c⟩, hnot⟩
    have hne : taskOf y ≠ n := fun e => hnot ⟨a, e⟩
    exact ⟨a, b, by omega⟩
  · rintro ⟨a, b, c⟩
    exact ⟨⟨a, b, by omega⟩, fun h' => by have := h'.2; omega⟩

/-- Block `t` of number `w`'s rows of an array, as a function on the block's own indices. -/
def blkOf (x : S1536x224x224.Idx → Elt F .f32) (w t : ℕ) : S4x32x224.Idx → Elt F .f32 :=
  fun z => x (ValueIdx.ix3 (⟨(48 * w + 4 * (t / 7) + (z 0).val) % 1536, Nat.mod_lt _ (by decide)⟩ : Fin 1536)
    (⟨(32 * (t % 7) + (z 1).val) % 224, Nat.mod_lt _ (by decide)⟩ : Fin 224) (z 2 : Fin 224))

/-- Reading the array through the block's slice is the block. -/
theorem slice_read_eq (x : S1536x224x224.Idx → Elt F .f32) (off : Fin 3 → ℕ)
    (inb : ∀ a, off a + S4x32x224.size a ≤ S1536x224x224.size a) (w t : ℕ)
    (h : off = ![48 * w + 4 * (t / 7), 32 * (t % 7), 0]) :
    (xV.slice (Rect.unit (s := S1536x224x224) off S4x32x224.size inb) (fun _ => rfl)).view.read (Elt F) x
      = blkOf x w t := by
  subst h
  funext z
  have hz0 : (z 0).val < 4 := (z 0).isLt
  have hz1 : (z 1).val < 32 := (z 1).isLt
  have i0 : 48 * w + 4 * (t / 7) + 4 ≤ 1536 := inb 0
  have i1 : 32 * (t % 7) + 32 ≤ 224 := inb 1
  show x ((Rect.unit (s := S1536x224x224) ![48 * w + 4 * (t / 7), 32 * (t % 7), 0] S4x32x224.size inb).emb z) = _
  unfold blkOf
  refine congrArg x ?_
  funext a
  match a with
  | ⟨0, _⟩ =>
    exact Fin.ext (by
      show 48 * w + 4 * (t / 7) + 1 * (z 0).val = (48 * w + 4 * (t / 7) + (z 0).val) % 1536
      omega)
  | ⟨1, _⟩ =>
    exact Fin.ext (by
      show 32 * (t % 7) + 1 * (z 1).val = (32 * (t % 7) + (z 1).val) % 224
      omega)
  | ⟨2, _⟩ =>
    exact Fin.ext (by
      show 0 + 1 * (z 2).val = (z 2).val
      omega)

/-- The rule on block t written over block t's slice: the result array holds the rule on the array there. -/
theorem landed_out [FloatOps F] (g x : S1536x224x224.Idx → Elt F .f32) (off : Fin 3 → ℕ)
    (inb : ∀ a, off a + S4x32x224.size a ≤ S1536x224x224.size a) (w t : ℕ) (ht : t < 84)
    (h : off = ![48 * w + 4 * (t / 7), 32 * (t % 7), 0]) :
    ∀ y ∈ blkSet w t,
      View.write (Elt F) (oV.slice (Rect.unit (s := S1536x224x224) off S4x32x224.size inb) (fun _ => rfl)).view g
          (Spec.blockFn (F := F) (blkOf x w t)) Finset.univ y
        = Spec.arrFn (F := F) x y := by
  intro y hy
  have hyR : y ∈ (Rect.unit (s := S1536x224x224) off S4x32x224.size inb).set := by
    rw [set_unit_eq_blk off inb w t ht h]; exact hy
  obtain ⟨z, rfl⟩ := (Rect.unit (s := S1536x224x224) off S4x32x224.size inb).toLoadRect.exists_idx_of_mem hyR
  have h4 : 4 ∣ off 0 := by
    subst h
    exact ⟨12 * w + t / 7, by show 48 * w + 4 * (t / 7) = 4 * (12 * w + t / 7); omega⟩
  have hb : blkOf x w t = fun z' : S4x32x224.Idx => x ((Rect.unit (s := S1536x224x224) off S4x32x224.size inb).emb z') :=
    (slice_read_eq x off inb w t h).symm
  refine (View.write_emb_of_mem (Val := Elt F)
    (v := (oV.slice (Rect.unit (s := S1536x224x224) off S4x32x224.size inb) (fun _ => rfl)).view)
    g _ (Finset.mem_univ z)).trans ?_
  show Spec.blockFn (F := F) (blkOf x w t) z = Spec.arrFn (F := F) x ((Rect.unit (s := S1536x224x224) off S4x32x224.size inb).emb z)
  rw [hb]
  exact blk_value x off inb h4 z

end Cert.KernelIdeal.Hand

end
-- ==== Proof.KernelIdealHand.Lane.lean ====
import proofs.«204259_g20779051778567_cont_8to1_992_21_alg».proof.Proof.KernelIdealHand.Common

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-- The rule on sixteen lanes of a row: `a` where it is the lanewise maximum of the four rows' lanes, zero elsewhere. -/
def laneOut (a a0 a1 a2 a3 : Vec F S1x1x16 .f32) : FVec F S1x1x16 .f32 :=
  shapeCast S1x1x16
    (select
      (cmpf .oeq (shapeCast S16 a shapeCasts_S1x1x16_S16)
        (maximumf (maximumf (shapeCast S16 a0 shapeCasts_S1x1x16_S16) (shapeCast S16 a1 shapeCasts_S1x1x16_S16))
          (maximumf (shapeCast S16 a2 shapeCasts_S1x1x16_S16) (shapeCast S16 a3 shapeCasts_S1x1x16_S16))))
      (shapeCast S16 a shapeCasts_S1x1x16_S16)
      (broadcast S16 (Scalar.ofBits .f32 0x00000000#32 : F .f32)))
    shapeCasts_S16_S1x1x16

omit [FloatOps F] in
theorem cast_back (x : S1x1x16.Idx) :
    Shape.reshapeEquiv shapeCasts_S1x1x16_S16 (Shape.reshapeEquiv shapeCasts_S16_S1x1x16 x) = x := by
  rw [Shape.reshapeEquiv_reshapeEquiv, Shape.reshapeEquiv_self]

theorem laneOut_apply (a a0 a1 a2 a3 : Vec F S1x1x16 .f32) (x : S1x1x16.Idx) :
    laneOut a a0 a1 a2 a3 x = Spec.keep (a x) (Spec.gmax (a0 x) (a1 x) (a2 x) (a3 x)) :=
  congrArg (fun i => Spec.keep (a i) (Spec.gmax (a0 i) (a1 i) (a2 i) (a3 i))) (cast_back x)

section View
variable {κ : Kind} {sp : Space} (v : View sig κ sp S4x32x224 .f32) (fi : v.ty.Contents (Elt F))

/-- Sixteen lanes of one row of a block, read at the offsets `o`. -/
abbrev rd (o : Fin 3 → ℕ) (i : ∀ a, o a + S1x1x16.size a ≤ S4x32x224.size a) : Vec F S1x1x16 .f32 :=
  v.readAt (Elt F) (Rect.unit (s := S4x32x224) o S1x1x16.size i).toLoadRect fi

/-- A piece of row `j` at (j, kv, c) holds the rule on the block: the reads at (0 .. 3, kv, c) are its entries' group. -/
theorem piece_ok {j kv c : ℕ} {oa o0 o1 o2 o3 : Fin 3 → ℕ}
    (ia : ∀ a, oa a + S1x1x16.size a ≤ S4x32x224.size a) (i0 : ∀ a, o0 a + S1x1x16.size a ≤ S4x32x224.size a)
    (i1 : ∀ a, o1 a + S1x1x16.size a ≤ S4x32x224.size a) (i2 : ∀ a, o2 a + S1x1x16.size a ≤ S4x32x224.size a)
    (i3 : ∀ a, o3 a + S1x1x16.size a ≤ S4x32x224.size a)
    (ha : oa = ![j, kv, c]) (h0 : o0 = ![0, kv, c]) (h1 : o1 = ![1, kv, c]) (h2 : o2 = ![2, kv, c]) (h3 : o3 = ![3, kv, c])
    (x : (Rect.unit (s := S4x32x224) oa S1x1x16.size ia).shape.Idx) :
    laneOut (rd v fi oa ia) (rd v fi o0 i0) (rd v fi o1 i1) (rd v fi o2 i2) (rd v fi o3 i3) x
      = Spec.blockFn (F := F) (v.read (Elt F) fi) ((Rect.unit (s := S4x32x224) oa S1x1x16.size ia).emb x) := by
  subst ha h0 h1 h2 h3
  have e : ∀ (r : ℕ) (ir : ∀ a, (![r, kv, c] : Fin 3 → ℕ) a + S1x1x16.size a ≤ S4x32x224.size a) (hr : r < 4),
      (Rect.unit (s := S4x32x224) ![r, kv, c] S1x1x16.size ir).toLoadRect.idx x
        = ValueIdx.ix3 (⟨r, hr⟩ : Fin 4) ((Rect.unit (s := S4x32x224) ![j, kv, c] S1x1x16.size ia).emb x 1 : Fin 32)
            ((Rect.unit (s := S4x32x224) ![j, kv, c] S1x1x16.size ia).emb x 2 : Fin 224) := by
    intro r ir hr
    funext a
    apply Fin.ext
    have hx0 : (x 0).val = 0 := by have := (x 0).isLt; simp at this; omega
    match a with
    | ⟨0, _⟩ => show r + 1 * (x 0).val = r; omega
    | ⟨1, _⟩ => rfl
    | ⟨2, _⟩ => rfl
  rw [laneOut_apply]
  show Spec.keep (v.read (Elt F) fi ((Rect.unit (s := S4x32x224) ![j, kv, c] S1x1x16.size ia).toLoadRect.idx x))
      (Spec.gmax (v.read (Elt F) fi ((Rect.unit (s := S4x32x224) ![0, kv, c] S1x1x16.size i0).toLoadRect.idx x))
        (v.read (Elt F) fi ((Rect.unit (s := S4x32x224) ![1, kv, c] S1x1x16.size i1).toLoadRect.idx x))
        (v.read (Elt F) fi ((Rect.unit (s := S4x32x224) ![2, kv, c] S1x1x16.size i2).toLoadRect.idx x))
        (v.read (Elt F) fi ((Rect.unit (s := S4x32x224) ![3, kv, c] S1x1x16.size i3).toLoadRect.idx x))) = _
  rw [e 0 i0 (by omega), e 1 i1 (by omega), e 2 i2 (by omega), e 3 i3 (by omega)]
  rfl

/-- The four pieces over one run of sixteen lanes, row 3 first, before the pieces `rest`. -/
abbrev quad (o0 o1 o2 o3 : Fin 3 → ℕ)
    (i0 : ∀ a, o0 a + S1x1x16.size a ≤ S4x32x224.size a) (i1 : ∀ a, o1 a + S1x1x16.size a ≤ S4x32x224.size a)
    (i2 : ∀ a, o2 a + S1x1x16.size a ≤ S4x32x224.size a) (i3 : ∀ a, o3 a + S1x1x16.size a ≤ S4x32x224.size a)
    (rest : List (View.Piece (Elt F) S4x32x224 .f32)) : List (View.Piece (Elt F) S4x32x224 .f32) :=
  ⟨Rect.unit (s := S4x32x224) o3 S1x1x16.size i3, laneOut (rd v fi o3 i3) (rd v fi o0 i0) (rd v fi o1 i1) (rd v fi o2 i2) (rd v fi o3 i3)⟩ ::
  ⟨Rect.unit (s := S4x32x224) o2 S1x1x16.size i2, laneOut (rd v fi o2 i2) (rd v fi o0 i0) (rd v fi o1 i1) (rd v fi o2 i2) (rd v fi o3 i3)⟩ ::
  ⟨Rect.unit (s := S4x32x224) o1 S1x1x16.size i1, laneOut (rd v fi o1 i1) (rd v fi o0 i0) (rd v fi o1 i1) (rd v fi o2 i2) (rd v fi o3 i3)⟩ ::
  ⟨Rect.unit (s := S4x32x224) o0 S1x1x16.size i0, laneOut (rd v fi o0 i0) (rd v fi o0 i0) (rd v fi o1 i1) (rd v fi o2 i2) (rd v fi o3 i3)⟩ :: rest

/-- The pieces `Ls` hold the rule on the block, cover the lanes below `c` of row `kv`, and lie in that row. -/
def RowChunks (kv c : ℕ) (Ls : List (View.Piece (Elt F) S4x32x224 .f32)) : Prop :=
  (∀ p ∈ Ls, ∀ x : p.1.shape.Idx, p.2 x = Spec.blockFn (F := F) (v.read (Elt F) fi) (p.1.emb x))
    ∧ (∀ y : S4x32x224.Idx, (y 1).val = kv → (y 2).val < c → ∃ p ∈ Ls, y ∈ p.1.set)
    ∧ ∀ y : S4x32x224.Idx, (y 1).val ≠ kv → ∀ p ∈ Ls, y ∉ p.1.set

theorem RowChunks.nil (kv : ℕ) : RowChunks v fi kv 0 [] :=
  ⟨fun _ h => absurd h List.not_mem_nil, fun _ _ h => absurd h (Nat.not_lt_zero _), fun _ _ _ h => absurd h List.not_mem_nil⟩

end View

omit [FloatOps F] in
theorem mem_chunk {y : S4x32x224.Idx} {off : Fin 3 → ℕ} {inb : ∀ a, off a + S1x1x16.size a ≤ S4x32x224.size a}
    {j kv c : ℕ} (ho : off = ![j, kv, c]) (h0 : (y 0).val = j) (h1 : (y 1).val = kv) (h2 : c ≤ (y 2).val ∧ (y 2).val < c + 16) :
    y ∈ (Rect.unit (s := S4x32x224) off S1x1x16.size inb).set := by
  subst ho
  rw [Rect.mem_set_unit]
  intro a
  match a with
  | ⟨0, _⟩ => exact ⟨by show j ≤ (y 0).val; omega, by show (y 0).val < j + 1; omega⟩
  | ⟨1, _⟩ => exact ⟨by show kv ≤ (y 1).val; omega, by show (y 1).val < kv + 1; omega⟩
  | ⟨2, _⟩ => exact ⟨by show c ≤ (y 2).val; omega, by show (y 2).val < c + 16; omega⟩

omit [FloatOps F] in
theorem not_mem_chunk {y : S4x32x224.Idx} {off : Fin 3 → ℕ} {inb : ∀ a, off a + S1x1x16.size a ≤ S4x32x224.size a}
    {j kv c : ℕ} (ho : off = ![j, kv, c]) (h1 : (y 1).val ≠ kv) :
    y ∉ (Rect.unit (s := S4x32x224) off S1x1x16.size inb).set := by
  subst ho
  rw [Rect.mem_set_unit]
  intro h
  have := h ⟨1, by decide⟩
  have h' : kv ≤ (y 1).val ∧ (y 1).val < kv + 1 := this
  omega

section View
variable {κ : Kind} {sp : Space} {v : View sig κ sp S4x32x224 .f32} {fi : v.ty.Contents (Elt F)}

/-- Four more pieces, the four rows of the group over the next sixteen lanes, extend the lanes covered by sixteen. -/
theorem RowChunks.quad {kv c : ℕ} {rest : List (View.Piece (Elt F) S4x32x224 .f32)} (hr : RowChunks v fi kv c rest)
    {o0 o1 o2 o3 : Fin 3 → ℕ}
    {i0 : ∀ a, o0 a + S1x1x16.size a ≤ S4x32x224.size a} {i1 : ∀ a, o1 a + S1x1x16.size a ≤ S4x32x224.size a}
    {i2 : ∀ a, o2 a + S1x1x16.size a ≤ S4x32x224.size a} {i3 : ∀ a, o3 a + S1x1x16.size a ≤ S4x32x224.size a}
    (h0 : o0 = ![0, kv, c]) (h1 : o1 = ![1, kv, c]) (h2 : o2 = ![2, kv, c]) (h3 : o3 = ![3, kv, c]) :
    RowChunks v fi kv (c + 16) (quad v fi o0 o1 o2 o3 i0 i1 i2 i3 rest) := by
  refine ⟨fun p hp => ?_, fun y hy hc => ?_, fun y hy p hp => ?_⟩
  · obtain rfl | hp := List.mem_cons.1 hp
    · exact piece_ok v fi i3 i0 i1 i2 i3 h3 h0 h1 h2 h3
    obtain rfl | hp := List.mem_cons.1 hp
    · exact piece_ok v fi i2 i0 i1 i2 i3 h2 h0 h1 h2 h3
    obtain rfl | hp := List.mem_cons.1 hp
    · exact piece_ok v fi i1 i0 i1 i2 i3 h1 h0 h1 h2 h3
    obtain rfl | hp := List.mem_cons.1 hp
    · exact piece_ok v fi i0 i0 i1 i2 i3 h0 h0 h1 h2 h3
    exact hr.1 p hp
  · by_cases hlt : (y 2).val < c
    · obtain ⟨p, hp, hm⟩ := hr.2.1 y hy hlt
      exact ⟨p, List.mem_cons_of_mem _ (List.mem_cons_of_mem _ (List.mem_cons_of_mem _ (List.mem_cons_of_mem _ hp))), hm⟩
    · have h4 : (y 0).val < 4 := (y 0).isLt
      have hc' : c ≤ (y 2).val ∧ (y 2).val < c + 16 := ⟨by omega, hc⟩
      rcases (show (y 0).val = 3 ∨ (y 0).val = 2 ∨ (y 0).val = 1 ∨ (y 0).val = 0 by omega) with h | h | h | h
      · exact ⟨_, List.mem_cons_self, mem_chunk (inb := i3) h3 h hy hc'⟩
      · exact ⟨_, List.mem_cons_of_mem _ List.mem_cons_self, mem_chunk (inb := i2) h2 h hy hc'⟩
      · exact ⟨_, List.mem_cons_of_mem _ (List.mem_cons_of_mem _ List.mem_cons_self), mem_chunk (inb := i1) h1 h hy hc'⟩
      · exact ⟨_, List.mem_cons_of_mem _ (List.mem_cons_of_mem _ (List.mem_cons_of_mem _ List.mem_cons_self)), mem_chunk (inb := i0) h0 h hy hc'⟩
  · obtain rfl | hp := List.mem_cons.1 hp
    · exact not_mem_chunk (inb := i3) h3 hy
    obtain rfl | hp := List.mem_cons.1 hp
    · exact not_mem_chunk (inb := i2) h2 hy
    obtain rfl | hp := List.mem_cons.1 hp
    · exact not_mem_chunk (inb := i1) h1 hy
    obtain rfl | hp := List.mem_cons.1 hp
    · exact not_mem_chunk (inb := i0) h0 hy
    exact hr.2.2 y hy p hp

/-- Pieces that hold the rule on all of row `kv` and touch no other row extend the rows done by one. -/
theorem RowChunks.step {κ' : Kind} {sp' : Space} (w : View sig κ' sp' S4x32x224 .f32) (f : w.ty.Contents (Elt F)) {kv : ℕ}
    {Ls : List (View.Piece (Elt F) S4x32x224 .f32)} (hL : RowChunks v fi kv 224 Ls)
    (h : ∀ y : S4x32x224.Idx, (y 1).val < kv → w.read (Elt F) f y = Spec.blockFn (F := F) (v.read (Elt F) fi) y) :
    ∀ y : S4x32x224.Idx, (y 1).val < kv + 1 →
      w.read (Elt F) (w.writes (Elt F) f Ls) y = Spec.blockFn (F := F) (v.read (Elt F) fi) y := by
  intro y hy
  by_cases hk : (y 1).val = kv
  · exact View.read_writes_apply_of_pieces w f _ Ls hL.1 y (hL.2.1 y hk (y 2).isLt)
  · exact (View.read_writes_apply_of_forall_not_mem w f y Ls (hL.2.2 y hk)).trans (h y (by omega))

end View

/-- Rows below `n` of `fo` hold the rule applied to `fi`. -/
def RowsDone (n : ℕ) (fi fo : S4x32x224.Idx → Elt F .f32) : Prop :=
  ∀ y : S4x32x224.Idx, (y 1).val < n → fo y = Spec.blockFn (F := F) fi y

theorem rowsDone_all {fi fo : S4x32x224.Idx → Elt F .f32} (h : RowsDone 32 fi fo) : fo = Spec.blockFn (F := F) fi :=
  funext fun y => h y (y 1).isLt

/-- The row loops' invariants: one buffer at `fi`, the other at some `fo` whose rows below `n` are done. -/
def rowInvA (d : Dev nD) (L : grid0.Coords) (fi : S4x32x224.Idx → Elt F .f32) (n : ℕ) (_ : Unit) : sProp 𝕄 :=
  iprop((ibA.view.loc (V d (cV L) (jV L)) ↦{fullShare} fi)
    ∗ ∃ fo : S4x32x224.Idx → Elt F .f32, ⌜RowsDone n fi fo⌝
      ∗ (obA.view.loc (V d (cV L) (jV L)) ↦{fullShare} fo))
def rowInvB (d : Dev nD) (L : grid0.Coords) (fi : S4x32x224.Idx → Elt F .f32) (n : ℕ) (_ : Unit) : sProp 𝕄 :=
  iprop((ibB.view.loc (V d (cV L) (jV L)) ↦{fullShare} fi)
    ∗ ∃ fo : S4x32x224.Idx → Elt F .f32, ⌜RowsDone n fi fo⌝
      ∗ (obB.view.loc (V d (cV L) (jV L)) ↦{fullShare} fo))

end Cert.KernelIdeal.Hand

end
-- ==== Proof.KernelIdealHand.InnerA.lean ====
import proofs.«204259_g20779051778567_cont_8to1_992_21_alg».proof.Proof.KernelIdealHand.Lane

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-- The 56 pieces of row `k`: for each run of sixteen lanes the four rows of the group, the highest lanes first. -/
def rowPiecesA (k : Fin k0_t2_loop.trips) (fi : S4x32x224.Idx → Elt F .f32) : List (View.Piece (Elt F) S4x32x224 .f32) :=
  quad ibA.view fi (k0_off54 k) (k0_off55 k) (k0_off56 k) (k0_off57 k) (k0_off54_inb k) (k0_off55_inb k) (k0_off56_inb k) (k0_off57_inb k) <|
  quad ibA.view fi (k0_off50 k) (k0_off51 k) (k0_off52 k) (k0_off53 k) (k0_off50_inb k) (k0_off51_inb k) (k0_off52_inb k) (k0_off53_inb k) <|
  quad ibA.view fi (k0_off46 k) (k0_off47 k) (k0_off48 k) (k0_off49 k) (k0_off46_inb k) (k0_off47_inb k) (k0_off48_inb k) (k0_off49_inb k) <|
  quad ibA.view fi (k0_off42 k) (k0_off43 k) (k0_off44 k) (k0_off45 k) (k0_off42_inb k) (k0_off43_inb k) (k0_off44_inb k) (k0_off45_inb k) <|
  quad ibA.view fi (k0_off38 k) (k0_off39 k) (k0_off40 k) (k0_off41 k) (k0_off38_inb k) (k0_off39_inb k) (k0_off40_inb k) (k0_off41_inb k) <|
  quad ibA.view fi (k0_off34 k) (k0_off35 k) (k0_off36 k) (k0_off37 k) (k0_off34_inb k) (k0_off35_inb k) (k0_off36_inb k) (k0_off37_inb k) <|
  quad ibA.view fi (k0_off30 k) (k0_off31 k) (k0_off32 k) (k0_off33 k) (k0_off30_inb k) (k0_off31_inb k) (k0_off32_inb k) (k0_off33_inb k) <|
  quad ibA.view fi (k0_off26 k) (k0_off27 k) (k0_off28 k) (k0_off29 k) (k0_off26_inb k) (k0_off27_inb k) (k0_off28_inb k) (k0_off29_inb k) <|
  quad ibA.view fi (k0_off22 k) (k0_off23 k) (k0_off24 k) (k0_off25 k) (k0_off22_inb k) (k0_off23_inb k) (k0_off24_inb k) (k0_off25_inb k) <|
  quad ibA.view fi (k0_off18 k) (k0_off19 k) (k0_off20 k) (k0_off21 k) (k0_off18_inb k) (k0_off19_inb k) (k0_off20_inb k) (k0_off21_inb k) <|
  quad ibA.view fi (k0_off14 k) (k0_off15 k) (k0_off16 k) (k0_off17 k) (k0_off14_inb k) (k0_off15_inb k) (k0_off16_inb k) (k0_off17_inb k) <|
  quad ibA.view fi (k0_off10 k) (k0_off11 k) (k0_off12 k) (k0_off13 k) (k0_off10_inb k) (k0_off11_inb k) (k0_off12_inb k) (k0_off13_inb k) <|
  quad ibA.view fi (k0_off6 k) (k0_off7 k) (k0_off8 k) (k0_off9 k) (k0_off6_inb k) (k0_off7_inb k) (k0_off8_inb k) (k0_off9_inb k) <|
  quad ibA.view fi (k0_off2 k) (k0_off3 k) (k0_off4 k) (k0_off5 k) (k0_off2_inb k) (k0_off3_inb k) (k0_off4_inb k) (k0_off5_inb k) []

/-- Fourteen runs of sixteen lanes, each the four rows of the group, make up row `k`. -/
theorem rowPiecesA_spec (k : Fin k0_t2_loop.trips) (fi : S4x32x224.Idx → Elt F .f32) :
    RowChunks ibA.view fi k.val 224 (rowPiecesA k fi) :=
  ((((((((((((((RowChunks.nil ibA.view fi k.val).quad (k0_off2_eq k) (k0_off3_eq k) (k0_off4_eq k) (k0_off5_eq k)).quad
    (k0_off6_eq k) (k0_off7_eq k) (k0_off8_eq k) (k0_off9_eq k)).quad (k0_off10_eq k) (k0_off11_eq k) (k0_off12_eq k) (k0_off13_eq k)).quad
    (k0_off14_eq k) (k0_off15_eq k) (k0_off16_eq k) (k0_off17_eq k)).quad (k0_off18_eq k) (k0_off19_eq k) (k0_off20_eq k) (k0_off21_eq k)).quad
    (k0_off22_eq k) (k0_off23_eq k) (k0_off24_eq k) (k0_off25_eq k)).quad (k0_off26_eq k) (k0_off27_eq k) (k0_off28_eq k) (k0_off29_eq k)).quad
    (k0_off30_eq k) (k0_off31_eq k) (k0_off32_eq k) (k0_off33_eq k)).quad (k0_off34_eq k) (k0_off35_eq k) (k0_off36_eq k) (k0_off37_eq k)).quad
    (k0_off38_eq k) (k0_off39_eq k) (k0_off40_eq k) (k0_off41_eq k)).quad (k0_off42_eq k) (k0_off43_eq k) (k0_off44_eq k) (k0_off45_eq k)).quad
    (k0_off46_eq k) (k0_off47_eq k) (k0_off48_eq k) (k0_off49_eq k)).quad (k0_off50_eq k) (k0_off51_eq k) (k0_off52_eq k) (k0_off53_eq k)).quad
    (k0_off54_eq k) (k0_off55_eq k) (k0_off56_eq k) (k0_off57_eq k)

/-- Trip `k` of the row loop extends the rows done from `k` to `k + 1`. -/
theorem trip_A (d : Dev nD) (L : grid0.Coords) (v2 c0 c1 : BitVec 32) (k0_t1 : Fin k0_t1_loop.trips) (k : Fin k0_t2_loop.trips)
    (fi : S4x32x224.Idx → Elt F .f32) :
    rowInvA d L fi k.val ()
      ⊢ wp frame (wpE (defs₀ (F := F)) 𝒱₀ (V d (cV L) (jV L)) none) Set.univ
          (k0_t2_body L xV (Memref.isWhole_whole _) oV (Memref.isWhole_whole _) ibA (Memref.isWhole_whole _) ibB (Memref.isWhole_whole _)
            obA (Memref.isWhole_whole _) obB (Memref.isWhole_whole _) cc0_scratch4 cc0_scratch5 cc0_scratch6 cc0_scratch7 v2 c0 c1 k0_t1 k ())
          (rowInvA d L fi (k.val + 1)) := by
  unfold rowInvA
  iintro ⟨Hib, %fo, %hfo, Hob⟩
  unfold k0_t2_body
  sl_exec
  sl_step
  isplitl [Hib]; · iexact Hib
  iexists (obA.view.writes (Elt F) fo (rowPiecesA k fi))
  isplitr
  · ipureintro
    exact (rowPiecesA_spec k fi).step obA.view fo hfo
  · iexact Hob

end Cert.KernelIdeal.Hand

end
-- ==== Proof.KernelIdealHand.InnerB.lean ====
import proofs.«204259_g20779051778567_cont_8to1_992_21_alg».proof.Proof.KernelIdealHand.Lane

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-- The 56 pieces of row `k`: for each run of sixteen lanes the four rows of the group, the highest lanes first. -/
def rowPiecesB (k : Fin k0_t3_loop.trips) (fi : S4x32x224.Idx → Elt F .f32) : List (View.Piece (Elt F) S4x32x224 .f32) :=
  quad ibB.view fi (k0_off112 k) (k0_off113 k) (k0_off114 k) (k0_off115 k) (k0_off112_inb k) (k0_off113_inb k) (k0_off114_inb k) (k0_off115_inb k) <|
  quad ibB.view fi (k0_off108 k) (k0_off109 k) (k0_off110 k) (k0_off111 k) (k0_off108_inb k) (k0_off109_inb k) (k0_off110_inb k) (k0_off111_inb k) <|
  quad ibB.view fi (k0_off104 k) (k0_off105 k) (k0_off106 k) (k0_off107 k) (k0_off104_inb k) (k0_off105_inb k) (k0_off106_inb k) (k0_off107_inb k) <|
  quad ibB.view fi (k0_off100 k) (k0_off101 k) (k0_off102 k) (k0_off103 k) (k0_off100_inb k) (k0_off101_inb k) (k0_off102_inb k) (k0_off103_inb k) <|
  quad ibB.view fi (k0_off96 k) (k0_off97 k) (k0_off98 k) (k0_off99 k) (k0_off96_inb k) (k0_off97_inb k) (k0_off98_inb k) (k0_off99_inb k) <|
  quad ibB.view fi (k0_off92 k) (k0_off93 k) (k0_off94 k) (k0_off95 k) (k0_off92_inb k) (k0_off93_inb k) (k0_off94_inb k) (k0_off95_inb k) <|
  quad ibB.view fi (k0_off88 k) (k0_off89 k) (k0_off90 k) (k0_off91 k) (k0_off88_inb k) (k0_off89_inb k) (k0_off90_inb k) (k0_off91_inb k) <|
  quad ibB.view fi (k0_off84 k) (k0_off85 k) (k0_off86 k) (k0_off87 k) (k0_off84_inb k) (k0_off85_inb k) (k0_off86_inb k) (k0_off87_inb k) <|
  quad ibB.view fi (k0_off80 k) (k0_off81 k) (k0_off82 k) (k0_off83 k) (k0_off80_inb k) (k0_off81_inb k) (k0_off82_inb k) (k0_off83_inb k) <|
  quad ibB.view fi (k0_off76 k) (k0_off77 k) (k0_off78 k) (k0_off79 k) (k0_off76_inb k) (k0_off77_inb k) (k0_off78_inb k) (k0_off79_inb k) <|
  quad ibB.view fi (k0_off72 k) (k0_off73 k) (k0_off74 k) (k0_off75 k) (k0_off72_inb k) (k0_off73_inb k) (k0_off74_inb k) (k0_off75_inb k) <|
  quad ibB.view fi (k0_off68 k) (k0_off69 k) (k0_off70 k) (k0_off71 k) (k0_off68_inb k) (k0_off69_inb k) (k0_off70_inb k) (k0_off71_inb k) <|
  quad ibB.view fi (k0_off64 k) (k0_off65 k) (k0_off66 k) (k0_off67 k) (k0_off64_inb k) (k0_off65_inb k) (k0_off66_inb k) (k0_off67_inb k) <|
  quad ibB.view fi (k0_off60 k) (k0_off61 k) (k0_off62 k) (k0_off63 k) (k0_off60_inb k) (k0_off61_inb k) (k0_off62_inb k) (k0_off63_inb k) []

/-- Fourteen runs of sixteen lanes, each the four rows of the group, make up row `k`. -/
theorem rowPiecesB_spec (k : Fin k0_t3_loop.trips) (fi : S4x32x224.Idx → Elt F .f32) :
    RowChunks ibB.view fi k.val 224 (rowPiecesB k fi) :=
  ((((((((((((((RowChunks.nil ibB.view fi k.val).quad (k0_off60_eq k) (k0_off61_eq k) (k0_off62_eq k) (k0_off63_eq k)).quad
    (k0_off64_eq k) (k0_off65_eq k) (k0_off66_eq k) (k0_off67_eq k)).quad (k0_off68_eq k) (k0_off69_eq k) (k0_off70_eq k) (k0_off71_eq k)).quad
    (k0_off72_eq k) (k0_off73_eq k) (k0_off74_eq k) (k0_off75_eq k)).quad (k0_off76_eq k) (k0_off77_eq k) (k0_off78_eq k) (k0_off79_eq k)).quad
    (k0_off80_eq k) (k0_off81_eq k) (k0_off82_eq k) (k0_off83_eq k)).quad (k0_off84_eq k) (k0_off85_eq k) (k0_off86_eq k) (k0_off87_eq k)).quad
    (k0_off88_eq k) (k0_off89_eq k) (k0_off90_eq k) (k0_off91_eq k)).quad (k0_off92_eq k) (k0_off93_eq k) (k0_off94_eq k) (k0_off95_eq k)).quad
    (k0_off96_eq k) (k0_off97_eq k) (k0_off98_eq k) (k0_off99_eq k)).quad (k0_off100_eq k) (k0_off101_eq k) (k0_off102_eq k) (k0_off103_eq k)).quad
    (k0_off104_eq k) (k0_off105_eq k) (k0_off106_eq k) (k0_off107_eq k)).quad (k0_off108_eq k) (k0_off109_eq k) (k0_off110_eq k) (k0_off111_eq k)).quad
    (k0_off112_eq k) (k0_off113_eq k) (k0_off114_eq k) (k0_off115_eq k)

/-- Trip `k` of the row loop extends the rows done from `k` to `k + 1`. -/
theorem trip_B (d : Dev nD) (L : grid0.Coords) (v2 c0 c1 : BitVec 32) (k0_t1 : Fin k0_t1_loop.trips) (k : Fin k0_t3_loop.trips)
    (fi : S4x32x224.Idx → Elt F .f32) :
    rowInvB d L fi k.val ()
      ⊢ wp frame (wpE (defs₀ (F := F)) 𝒱₀ (V d (cV L) (jV L)) none) Set.univ
          (k0_t3_body L xV (Memref.isWhole_whole _) oV (Memref.isWhole_whole _) ibA (Memref.isWhole_whole _) ibB (Memref.isWhole_whole _)
            obA (Memref.isWhole_whole _) obB (Memref.isWhole_whole _) cc0_scratch4 cc0_scratch5 cc0_scratch6 cc0_scratch7 v2 k0_t1 c0 c1 k ())
          (rowInvB d L fi (k.val + 1)) := by
  unfold rowInvB
  iintro ⟨Hib, %fo, %hfo, Hob⟩
  unfold k0_t3_body
  sl_exec
  sl_step
  isplitl [Hib]; · iexact Hib
  iexists (obB.view.writes (Elt F) fo (rowPiecesB k fi))
  isplitr
  · ipureintro
    exact (rowPiecesB_spec k fi).step obB.view fo hfo
  · iexact Hob

end Cert.KernelIdeal.Hand

end
-- ==== Proof.KernelIdealHand.CoreDefs.lean ====
import proofs.«204259_g20779051778567_cont_8to1_992_21_alg».proof.Proof.KernelIdealHand.Common
import proofs.«204259_g20779051778567_cont_8to1_992_21_alg».proof.Proof.KernelIdealHand.Geom2
import proofs.«204259_g20779051778567_cont_8to1_992_21_alg».proof.Proof.KernelIdealHand.InnerA
import proofs.«204259_g20779051778567_cont_8to1_992_21_alg».proof.Proof.KernelIdealHand.InnerB

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

abbrev thrV (d : Dev nD) (L : grid0.Coords) : Thread nD τ := V d (cV L) (jV L)

abbrev xBlk0 (L : grid0.Coords) : Memref sig .scVector .hbm S4x32x224 .f32 :=
  xV.slice (Rect.unit (s := S1536x224x224) (k0_off1 L 0#32) S4x32x224.size (k0_off1_inb L 0)) (fun _ => rfl)
abbrev xBlk1 (L : grid0.Coords) : Memref sig .scVector .hbm S4x32x224 .f32 :=
  xV.slice (Rect.unit (s := S1536x224x224) (k0_off1 L 1#32) S4x32x224.size (k0_off1_inb L 1)) (fun _ => rfl)
abbrev xBlkE (L : grid0.Coords) (k : Fin k0_t1_loop.trips) (h : k0_cond2 k = 1#1) : Memref sig .scVector .hbm S4x32x224 .f32 :=
  xV.slice (Rect.unit (s := S1536x224x224) (k0_off59 L k) S4x32x224.size (k0_off59_inb L k h)) (fun _ => rfl)
abbrev xBlkO (L : grid0.Coords) (k : Fin k0_t1_loop.trips) (h : k0_cond4 k = 1#1) : Memref sig .scVector .hbm S4x32x224 .f32 :=
  xV.slice (Rect.unit (s := S1536x224x224) (k0_off116 L k) S4x32x224.size (k0_off116_inb L k h)) (fun _ => rfl)
abbrev oBlkE (L : grid0.Coords) (k : Fin k0_t1_loop.trips) : Memref sig .scVector .hbm S4x32x224 .f32 :=
  oV.slice (Rect.unit (s := S1536x224x224) (k0_off58 L k 0#32) S4x32x224.size (k0_off58_inb L k 0)) (fun _ => rfl)
abbrev oBlkO (L : grid0.Coords) (k : Fin k0_t1_loop.trips) : Memref sig .scVector .hbm S4x32x224 .f32 :=
  oV.slice (Rect.unit (s := S1536x224x224) (k0_off58 L k 1#32) S4x32x224.size (k0_off58_inb L k 1)) (fun _ => rfl)

section Inv

variable (m : (ℓ : Loc nD τ sig) → Buf (Elt F) ℓ) (d : Dev nD) (L : grid0.Coords)
variable (O : CellTallies nD τ sig (HIx 1)) (W : Waits sig (HIx 1))

def slotRest (w j t : ℕ) : Finset S1536x224x224.Idx := slotSet w j \ blkSet w t

def blkIn (t : ℕ) : S4x32x224.Idx → Elt F .f32 := blkOf (x3 m d) (wid L) t
def blkOut (t : ℕ) : S4x32x224.Idx → Elt F .f32 := Spec.blockFn (F := F) (blkIn m d L t)

def inA (p : ℕ) : sProp 𝕄 :=
  if p < 42 then
    iprop(Transfers.Flight countersEmb (thrV d L) (SemLoc.dma cc0_scratch4.sem) default 917504
        iprop((ibA.view.loc (thrV d L) ↦{fullShare} blkIn m d L (2 * p))
          ∗ (xLoc d ↦[blkSet (wid L) (2 * p)]{fullShare} x3 m d))
      ∗ (xLoc d ↦[slotRest (wid L) 0 (2 * p)]{fullShare} x3 m d))
  else
    iprop((∃ f, ibA.view.loc (thrV d L) ↦{fullShare} f)
      ∗ semVal (thrV d L, SemLoc.dma cc0_scratch4.sem) 0 ∗ (xLoc d ↦[slotSet (wid L) 0]{fullShare} x3 m d))

def inB (p : ℕ) : sProp 𝕄 :=
  if p < 42 then
    iprop(Transfers.Flight countersEmb (thrV d L) (SemLoc.dma cc0_scratch5.sem) default 917504
        iprop((ibB.view.loc (thrV d L) ↦{fullShare} blkIn m d L (2 * p + 1))
          ∗ (xLoc d ↦[blkSet (wid L) (2 * p + 1)]{fullShare} x3 m d))
      ∗ (xLoc d ↦[slotRest (wid L) 1 (2 * p + 1)]{fullShare} x3 m d))
  else
    iprop((∃ f, ibB.view.loc (thrV d L) ↦{fullShare} f)
      ∗ semVal (thrV d L, SemLoc.dma cc0_scratch5.sem) 0 ∗ (xLoc d ↦[slotSet (wid L) 1]{fullShare} x3 m d))

def outA (p : ℕ) : sProp 𝕄 :=
  if p = 0 then
    iprop((∃ f, obA.view.loc (thrV d L) ↦{fullShare} f)
      ∗ semVal (thrV d L, SemLoc.dma cc0_scratch6.sem) 0 ∗ (oLoc d ↦[slotSet (wid L) 0]{fullShare} m (oLoc d)))
  else
    iprop(Transfers.Flight countersEmb (thrV d L) (SemLoc.dma cc0_scratch6.sem) default 917504
        iprop((oLoc d ↦[blkSet (wid L) (2 * p - 2)]{fullShare} o3 m d)
          ∗ (obA.view.loc (thrV d L) ↦{fullShare} blkOut m d L (2 * p - 2)))
      ∗ (oLoc d ↦[slotLT (wid L) 0 (2 * p - 2)]{fullShare} o3 m d)
      ∗ (oLoc d ↦[slotGE (wid L) 0 (2 * p)]{fullShare} m (oLoc d)))

def outB (p : ℕ) : sProp 𝕄 :=
  if p = 0 then
    iprop((∃ f, obB.view.loc (thrV d L) ↦{fullShare} f)
      ∗ semVal (thrV d L, SemLoc.dma cc0_scratch7.sem) 0 ∗ (oLoc d ↦[slotSet (wid L) 1]{fullShare} m (oLoc d)))
  else
    iprop(Transfers.Flight countersEmb (thrV d L) (SemLoc.dma cc0_scratch7.sem) default 917504
        iprop((oLoc d ↦[blkSet (wid L) (2 * p - 1)]{fullShare} o3 m d)
          ∗ (obB.view.loc (thrV d L) ↦{fullShare} blkOut m d L (2 * p - 1)))
      ∗ (oLoc d ↦[slotLT (wid L) 1 (2 * p - 1)]{fullShare} o3 m d)
      ∗ (oLoc d ↦[slotGE (wid L) 1 (2 * p + 1)]{fullShare} m (oLoc d)))

/-- The block loop's invariant at trip `p`: blocks below 2p - 2 of the result hold the rule, blocks from 2p on are untouched. -/
def inv (p : ℕ) (_ : PUnit) : sProp 𝕄 :=
  iprop(Transfers.MayWaits (thrV d L) (none : HIx 1) O
    ∗ inA m d L p ∗ inB m d L p ∗ outA m d L p ∗ outB m d L p
    ∗ ∃ W', ⌜∀ q ∈ W', q ∈ W ∨ q.2 = none⌝ ∗ owes (thrV d L) O W')

end Inv

/-- The two conditions the program leaves unnamed: 2k ≥ 2 and 2k + 1 ≥ 2 hold exactly from k = 1 on. -/
theorem condA_pos : ∀ k : Fin k0_t1_loop.trips, 1 ≤ k.val →
    Scalar.cmpi .ne (Scalar.extui (Scalar.cmpi .sge (Scalar.addi (Scalar.muli (Scf.iv 0#32 1#32 k.val) 2#32) 0#32) 2#32)) 0#32 = 1#1 := by
  decide +kernel
theorem condA_neg : ∀ k : Fin k0_t1_loop.trips, k.val = 0 →
    ¬ Scalar.cmpi .ne (Scalar.extui (Scalar.cmpi .sge (Scalar.addi (Scalar.muli (Scf.iv 0#32 1#32 k.val) 2#32) 0#32) 2#32)) 0#32 = 1#1 := by
  decide +kernel
theorem condB_pos : ∀ k : Fin k0_t1_loop.trips, 1 ≤ k.val →
    Scalar.cmpi .ne (Scalar.extui (Scalar.cmpi .sge (Scalar.addi (Scalar.muli (Scf.iv 0#32 1#32 k.val) 2#32) 1#32) 2#32)) 0#32 = 1#1 := by
  decide +kernel
theorem condB_neg : ∀ k : Fin k0_t1_loop.trips, k.val = 0 →
    ¬ Scalar.cmpi .ne (Scalar.extui (Scalar.cmpi .sge (Scalar.addi (Scalar.muli (Scf.iv 0#32 1#32 k.val) 2#32) 1#32) 2#32)) 0#32 = 1#1 := by
  decide +kernel

end Cert.KernelIdeal.Hand

end
-- ==== Proof.KernelIdealHand.Slices.lean ====
import proofs.«204259_g20779051778567_cont_8to1_992_21_alg».proof.Proof.KernelIdealHand.Common
import proofs.«204259_g20779051778567_cont_8to1_992_21_alg».proof.Proof.KernelIdealHand.CoreDefs

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

private theorem vec3_congr {a b c a' b' c' : ℕ} (h0 : a = a') (h1 : b = b') (h2 : c = c') :
    (![a, b, c] : Fin 3 → ℕ) = ![a', b', c'] := by
  subst h0 h1 h2; rfl

/-- The printed offsets of the six slices in the blocks' own form. -/
theorem xBlk0_off (L : grid0.Coords) : k0_off1 L 0#32 = ![48 * wid L + 4 * (0 / 7), 32 * (0 % 7), 0] := by
  have hw := wid_eq L
  have e : k0_off1 L 0#32 = ![96 * (L 1).val + 48 * (L 0).val, 32 * 0, 0] := k0_off1_eq L 0
  rw [e]
  exact vec3_congr (by omega) (by omega) rfl
theorem xBlk1_off (L : grid0.Coords) : k0_off1 L 1#32 = ![48 * wid L + 4 * (1 / 7), 32 * (1 % 7), 0] := by
  have hw := wid_eq L
  have e : k0_off1 L 1#32 = ![96 * (L 1).val + 48 * (L 0).val, 32 * 1, 0] := k0_off1_eq L 1
  rw [e]
  exact vec3_congr (by omega) (by omega) rfl
theorem xBlkE_off (L : grid0.Coords) (k : Fin k0_t1_loop.trips) :
    k0_off59 L k = ![48 * wid L + 4 * ((2 * k.val + 2) / 7), 32 * ((2 * k.val + 2) % 7), 0] := by
  have hw := wid_eq L
  rw [k0_off59_eq L k]
  exact vec3_congr (by omega) rfl rfl
theorem xBlkO_off (L : grid0.Coords) (k : Fin k0_t1_loop.trips) :
    k0_off116 L k = ![48 * wid L + 4 * ((2 * k.val + 3) / 7), 32 * ((2 * k.val + 3) % 7), 0] := by
  have hw := wid_eq L
  rw [k0_off116_eq L k]
  exact vec3_congr (by omega) rfl rfl
theorem oBlkE_off (L : grid0.Coords) (k : Fin k0_t1_loop.trips) :
    k0_off58 L k 0#32 = ![48 * wid L + 4 * ((2 * k.val) / 7), 32 * ((2 * k.val) % 7), 0] := by
  have hw := wid_eq L
  have e : k0_off58 L k 0#32
      = ![96 * (L 1).val + 48 * (L 0).val + 4 * ((2 * k.val + 0) / 7), 32 * ((2 * k.val + 0) % 7), 0] := off58_eq L k 0
  rw [e]
  exact vec3_congr (by omega) (by omega) rfl
theorem oBlkO_off (L : grid0.Coords) (k : Fin k0_t1_loop.trips) :
    k0_off58 L k 1#32 = ![48 * wid L + 4 * ((2 * k.val + 1) / 7), 32 * ((2 * k.val + 1) % 7), 0] := by
  have hw := wid_eq L
  have e : k0_off58 L k 1#32
      = ![96 * (L 1).val + 48 * (L 0).val + 4 * ((2 * k.val + 1) / 7), 32 * ((2 * k.val + 1) % 7), 0] := off58_eq L k 1
  rw [e]
  exact vec3_congr (by omega) (by omega) rfl

omit [FloatOps F] in
/-- A block-shaped slice of the input or of the result array at block `t`'s offsets has block `t`'s entries. -/
theorem xBlk_set (L : grid0.Coords) {off : Fin 3 → ℕ} {inb : ∀ a, off a + S4x32x224.size a ≤ S1536x224x224.size a} {t : ℕ} (ht : t < 84)
    (h : off = ![48 * wid L + 4 * (t / 7), 32 * (t % 7), 0]) :
    (xV.slice (Rect.unit (s := S1536x224x224) off S4x32x224.size inb) (fun _ => rfl)).view.set
      = blkSet (wid L) t :=
  (View.set_slice_whole _ _).trans (set_unit_eq_blk off inb (wid L) t ht h)
omit [FloatOps F] in
theorem oBlk_set (L : grid0.Coords) {off : Fin 3 → ℕ} {inb : ∀ a, off a + S4x32x224.size a ≤ S1536x224x224.size a} {t : ℕ} (ht : t < 84)
    (h : off = ![48 * wid L + 4 * (t / 7), 32 * (t % 7), 0]) :
    (oV.slice (Rect.unit (s := S1536x224x224) off S4x32x224.size inb) (fun _ => rfl)).view.set
      = blkSet (wid L) t :=
  (View.set_slice_whole _ _).trans (set_unit_eq_blk off inb (wid L) t ht h)

omit [FloatOps F] in
/-- Holding a block's entries of the input or result array is holding the printed slice by its own elements. -/
theorem xBlk0_pts (d : Dev nD) (L : grid0.Coords) (q : PosShare TreeShare) (f : Buf (Elt F) (xLoc d)) :
    (xLoc d ↦[blkSet (wid L) 0]{q} f : sProp 𝕄) = ((xBlk0 L).view.loc (thrV d L) ↦[(xBlk0 L).view.set]{q} f) := by
  rw [xBlk_set L (by omega) (xBlk0_off L)]
omit [FloatOps F] in
theorem xBlk1_pts (d : Dev nD) (L : grid0.Coords) (q : PosShare TreeShare) (f : Buf (Elt F) (xLoc d)) :
    (xLoc d ↦[blkSet (wid L) 1]{q} f : sProp 𝕄) = ((xBlk1 L).view.loc (thrV d L) ↦[(xBlk1 L).view.set]{q} f) := by
  rw [xBlk_set L (by omega) (xBlk1_off L)]
omit [FloatOps F] in
theorem xBlkE_pts (d : Dev nD) (L : grid0.Coords) (k : Fin k0_t1_loop.trips) (h : k0_cond2 k = 1#1) (q : PosShare TreeShare)
    (f : Buf (Elt F) (xLoc d)) :
    (xLoc d ↦[blkSet (wid L) (2 * k.val + 2)]{q} f : sProp 𝕄)
      = ((xBlkE L k h).view.loc (thrV d L) ↦[(xBlkE L k h).view.set]{q} f) := by
  rw [xBlk_set L (by have := (cond2_iff k).mp h; omega) (xBlkE_off L k)]
omit [FloatOps F] in
theorem xBlkO_pts (d : Dev nD) (L : grid0.Coords) (k : Fin k0_t1_loop.trips) (h : k0_cond4 k = 1#1) (q : PosShare TreeShare)
    (f : Buf (Elt F) (xLoc d)) :
    (xLoc d ↦[blkSet (wid L) (2 * k.val + 3)]{q} f : sProp 𝕄)
      = ((xBlkO L k h).view.loc (thrV d L) ↦[(xBlkO L k h).view.set]{q} f) := by
  rw [xBlk_set L (by have := (cond4_iff k).mp h; omega) (xBlkO_off L k)]
omit [FloatOps F] in
theorem oBlkE_pts (d : Dev nD) (L : grid0.Coords) (k : Fin k0_t1_loop.trips) (q : PosShare TreeShare) (f : Buf (Elt F) (oLoc d)) :
    (oLoc d ↦[blkSet (wid L) (2 * k.val)]{q} f : sProp 𝕄)
      = ((oBlkE L k).view.loc (thrV d L) ↦[(oBlkE L k).view.set]{q} f) := by
  rw [oBlk_set L (by have := lt_of_lt_of_eq k.isLt trips1; omega) (oBlkE_off L k)]
omit [FloatOps F] in
theorem oBlkO_pts (d : Dev nD) (L : grid0.Coords) (k : Fin k0_t1_loop.trips) (q : PosShare TreeShare) (f : Buf (Elt F) (oLoc d)) :
    (oLoc d ↦[blkSet (wid L) (2 * k.val + 1)]{q} f : sProp 𝕄)
      = ((oBlkO L k).view.loc (thrV d L) ↦[(oBlkO L k).view.set]{q} f) := by
  rw [oBlk_set L (by have := lt_of_lt_of_eq k.isLt trips1; omega) (oBlkO_off L k)]

section Land
variable (m : (ℓ : Loc nD τ sig) → Buf (Elt F) ℓ) (d : Dev nD) (L : grid0.Coords)

/-- A block read through its slice and written over a whole buffer is `blkIn` of its number. -/
theorem landed_in0 (fa : S4x32x224.Idx → Elt F .f32) :
    View.write (Elt F) ibA.view fa
      (ReadAs.same.apply (View.read (Elt F) (xBlk0 L).view (x3 m d))) Finset.univ = blkIn m d L 0 := by
  unfold blkIn
  exact (View.write_whole_univ (cc0_scratch0 : Ref sig .scVector) fa _).trans (slice_read_eq (x3 m d) _ _ (wid L) 0 (xBlk0_off L))
theorem landed_in1 (fa : S4x32x224.Idx → Elt F .f32) :
    View.write (Elt F) ibB.view fa
      (ReadAs.same.apply (View.read (Elt F) (xBlk1 L).view (x3 m d))) Finset.univ = blkIn m d L 1 := by
  unfold blkIn
  exact (View.write_whole_univ (cc0_scratch1 : Ref sig .scVector) fa _).trans (slice_read_eq (x3 m d) _ _ (wid L) 1 (xBlk1_off L))
theorem landed_inE (k : Fin k0_t1_loop.trips) (h : k0_cond2 k = 1#1) (fa : S4x32x224.Idx → Elt F .f32) :
    View.write (Elt F) ibA.view fa
      (ReadAs.same.apply (View.read (Elt F) (xBlkE L k h).view (x3 m d))) Finset.univ = blkIn m d L (2 * k.val + 2) := by
  unfold blkIn
  exact (View.write_whole_univ (cc0_scratch0 : Ref sig .scVector) fa _).trans (slice_read_eq (x3 m d) _ _ (wid L) (2 * k.val + 2) (xBlkE_off L k))
theorem landed_inO (k : Fin k0_t1_loop.trips) (h : k0_cond4 k = 1#1) (fa : S4x32x224.Idx → Elt F .f32) :
    View.write (Elt F) ibB.view fa
      (ReadAs.same.apply (View.read (Elt F) (xBlkO L k h).view (x3 m d))) Finset.univ = blkIn m d L (2 * k.val + 3) := by
  unfold blkIn
  exact (View.write_whole_univ (cc0_scratch1 : Ref sig .scVector) fa _).trans (slice_read_eq (x3 m d) _ _ (wid L) (2 * k.val + 3) (xBlkO_off L k))

/-- An unmasked write through a view sliced by the whole rectangle is the write through the view. -/
private theorem write_slice_whole_univ {κ : Kind} {sp : Space} {s : Shape} {e : EltTy} (v : View sig κ sp s e)
    (f : v.ty.Contents (Elt F)) (w : s.Idx → Elt F e) :
    (v.slice (Rect.whole s)).write (Elt F) f w Finset.univ = v.write (Elt F) f w Finset.univ := by
  funext i
  by_cases hi : i ∈ v.set
  · obtain ⟨x, -, rfl⟩ := Finset.mem_map.mp hi
    have e' : v.emb x = (v.slice (Rect.whole s)).emb x := by
      rw [View.emb_slice]
      show v.emb x = v.emb ((Rect.whole s).emb x)
      rw [Rect.emb_whole_apply]
    conv_lhs => rw [e', View.write_emb_of_mem _ _ (Finset.mem_univ _)]
    rw [View.write_emb_of_mem _ _ (Finset.mem_univ _)]
  · rw [View.write_of_not_mem _ _ _ (by rw [View.setOn_univ]; exact fun h => hi (View.set_slice_subset _ _ h)),
      View.write_of_not_mem _ _ _ (by rwa [View.setOn_univ])]

/-- The rule on block 2k (2k + 1) written through the block's slice is the rule on the array at the block's entries. -/
theorem landed_outE (k : Fin k0_t1_loop.trips) (g : Buf (Elt F) (oLoc d)) (q : PosShare TreeShare) :
    ((oBlkE L k).view.loc (thrV d L) ↦[(oBlkE L k).view.set]{q}
        (oBlkE L k).view.writes (Elt F) g
          [⟨Rect.whole S4x32x224, ReadAs.same.apply (View.read (Elt F) obA.view (blkOut m d L (2 * k.val)))⟩] : sProp 𝕄)
      = (oLoc d ↦[blkSet (wid L) (2 * k.val)]{q} o3 m d) := by
  have hk : k.val < 42 := lt_of_lt_of_eq k.isLt trips1
  rw [View.writes_singleton, write_slice_whole_univ, oBlk_set L (by omega) (oBlkE_off L k)]
  show (oLoc d ↦[blkSet (wid L) (2 * k.val)]{q} _ : sProp 𝕄) = _
  refine pointsTo_congr (fun y hy => ?_)
  unfold blkOut blkIn o3
  exact landed_out g (x3 m d) _ _ (wid L) (2 * k.val) (by omega) (oBlkE_off L k) y hy
theorem landed_outO (k : Fin k0_t1_loop.trips) (g : Buf (Elt F) (oLoc d)) (q : PosShare TreeShare) :
    ((oBlkO L k).view.loc (thrV d L) ↦[(oBlkO L k).view.set]{q}
        (oBlkO L k).view.writes (Elt F) g
          [⟨Rect.whole S4x32x224, ReadAs.same.apply (View.read (Elt F) obB.view (blkOut m d L (2 * k.val + 1)))⟩] : sProp 𝕄)
      = (oLoc d ↦[blkSet (wid L) (2 * k.val + 1)]{q} o3 m d) := by
  have hk : k.val < 42 := lt_of_lt_of_eq k.isLt trips1
  rw [View.writes_singleton, write_slice_whole_univ, oBlk_set L (by omega) (oBlkO_off L k)]
  show (oLoc d ↦[blkSet (wid L) (2 * k.val + 1)]{q} _ : sProp 𝕄) = _
  refine pointsTo_congr (fun y hy => ?_)
  unfold blkOut blkIn o3
  exact landed_out g (x3 m d) _ _ (wid L) (2 * k.val + 1) (by omega) (oBlkO_off L k) y hy

end Land

omit [FloatOps F] in
/-- A whole buffer held by its own elements is held whole. -/
theorem obA_pts (d : Dev nD) (L : grid0.Coords) (f : S4x32x224.Idx → Elt F .f32) :
    (obA.view.loc (thrV d L) ↦[obA.view.set]{fullShare} f : sProp 𝕄)
      = (obA.view.loc (thrV d L) ↦{fullShare} f) := by
  rw [show obA.view.set = Finset.univ from View.set_whole _]
omit [FloatOps F] in
theorem obB_pts (d : Dev nD) (L : grid0.Coords) (f : S4x32x224.Idx → Elt F .f32) :
    (obB.view.loc (thrV d L) ↦[obB.view.set]{fullShare} f : sProp 𝕄)
      = (obB.view.loc (thrV d L) ↦{fullShare} f) := by
  rw [show obB.view.set = Finset.univ from View.set_whole _]

end Cert.KernelIdeal.Hand

end
-- ==== Proof.KernelIdealHand.TripMid.lean ====
import proofs.«204259_g20779051778567_cont_8to1_992_21_alg».proof.Proof.KernelIdealHand.Common
import proofs.«204259_g20779051778567_cont_8to1_992_21_alg».proof.Proof.KernelIdealHand.Slices

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-- A trip `k` with 1 ≤ k < 41 keeps the invariant. -/
theorem trip_mid (m : (ℓ : Loc nD τ sig) → Buf (Elt F) ℓ) (d : Dev nD) (L : grid0.Coords)
    (O : CellTallies nD τ sig (HIx 1)) (W : Waits sig (HIx 1)) (v2 : BitVec 32) (k : Fin k0_t1_loop.trips)
    (hk1 : 1 ≤ k.val) (hk40 : k.val < 41) :
    inv m d L O W k.val ()
      ⊢ wp frame (wpE (defs₀ (F := F)) 𝒱₀ (thrV d L) none) Set.univ
          (k0_t1_body L xV (Memref.isWhole_whole _) oV (Memref.isWhole_whole _) ibA (Memref.isWhole_whole _) ibB (Memref.isWhole_whole _)
            obA (Memref.isWhole_whole _) obB (Memref.isWhole_whole _) cc0_scratch4 cc0_scratch5 cc0_scratch6 cc0_scratch7 v2 k ())
          (fun r => inv m d L O W (k.val + 1) r) := by
  have hk : k.val < 42 := by omega
  have hk0 : ¬ k.val = 0 := by omega
  have hsA : blkSet (wid L) (2 * k.val) ⊆ slotSet (wid L) 0 := by
    have := blk_subset_slot (wid L) (2 * k.val); rwa [Nat.mul_mod_right] at this
  have hsB : blkSet (wid L) (2 * k.val + 1) ⊆ slotSet (wid L) 1 := by
    have := blk_subset_slot (wid L) (2 * k.val + 1); rwa [show (2 * k.val + 1) % 2 = 1 by omega] at this
  have hsA2 : blkSet (wid L) (2 * k.val + 2) ⊆ slotSet (wid L) 0 := by
    have := blk_subset_slot (wid L) (2 * k.val + 2); rwa [show (2 * k.val + 2) % 2 = 0 by omega] at this
  have hsB2 : blkSet (wid L) (2 * k.val + 3) ⊆ slotSet (wid L) 1 := by
    have := blk_subset_slot (wid L) (2 * k.val + 3); rwa [show (2 * k.val + 3) % 2 = 1 by omega] at this
  unfold inv inA inB outA outB
  rw [if_pos hk, if_pos hk, if_neg hk0, if_neg hk0]
  iintro ⟨#Hmw, ⟨FA, XA⟩, ⟨FB, XB⟩, ⟨GA, DA, TA⟩, ⟨GB, DB, TB⟩, %W', %hW', HO⟩
  have hcA := condA_pos k hk1
  have hcB := condB_pos k hk1
  have k0_h2 : k0_cond2 k = 1#1 := (cond2_iff k).2 hk40
  have k0_h4 : k0_cond4 k = 1#1 := (cond4_iff k).2 hk40
  unfold k0_t1_body
  sl_exec
  sl_for (rowInvA d L (blkIn m d L (2 * k.val))) $$ [FA_dst GA_src]
  case region =>
    intro kk acc
    exact trip_A d L v2 0#32 1#32 k kk (blkIn m d L (2 * k.val))
  · unfold rowInvA
    isplitl [FA_dst]; · iexact FA_dst
    iexists (blkOut m d L (2 * k.val - 2))
    isplitr
    · ipureintro; intro y hy; omega
    · iexact GA_src
  iintro %_ HI
  unfold rowInvA
  icases HI with ⟨Hib, %fo, %hfo, Hob⟩
  have hfo' : fo = blkOut m d L (2 * k.val) :=
    rowsDone_all (by rw [show Scf.trips k0_t2_loop.lb k0_t2_loop.ub k0_t2_loop.st = 32 from trips2] at hfo; exact hfo)
  subst hfo'
  ihave DA' := (pointsTo_union (ℓ := oLoc d) (slotLT_blk_disjoint (wid L) 0 (2 * k.val - 2))).2 $$ [DA GA_dst]
  · isplitl [DA]; · iexact DA
    iexact GA_dst
  rw [← slotLT_step (wid L) 0 (2 * k.val - 2) (by omega), show 2 * k.val - 2 + 2 = 2 * k.val by omega]
  ihave TA2 := (pointsTo_split_subset (ℓ := oLoc d) (blk_subset_slotGE (wid L) 0 (2 * k.val) (by omega))).1 $$ TA
  icases TA2 with ⟨On, TA'⟩
  rw [slotGE_sdiff (wid L) 0 (2 * k.val) (by omega)]
  ihave On' := (Entails.of_eq (oBlkE_pts (F := F) d L k fullShare (m (oLoc d)))) $$ On
  ihave Hx := (pointsTo_split_subset (ℓ := xLoc d) hsA).2 $$ [FA_src XA]
  · isplitl [FA_src]; · iexact FA_src
    iexact XA
  ihave Hx2 := (pointsTo_split_subset (ℓ := xLoc d) hsA2).1 $$ Hx
  icases Hx2 with ⟨Xn, XA'⟩
  ihave Xn' := (Entails.of_eq (xBlkE_pts (F := F) d L k k0_h2 fullShare (x3 m d))) $$ Xn
  sl_exec
  sl_for (rowInvB d L (blkIn m d L (2 * k.val + 1))) $$ [FB_dst GB_src]
  case region =>
    intro kk acc
    exact trip_B d L v2 _ _ k kk (blkIn m d L (2 * k.val + 1))
  · unfold rowInvB
    isplitl [FB_dst]; · iexact FB_dst
    iexists (blkOut m d L (2 * k.val - 1))
    isplitr
    · ipureintro; intro y hy; omega
    · iexact GB_src
  iintro %_ HI
  unfold rowInvB
  icases HI with ⟨HibB, %foB, %hfoB, HobB⟩
  have hfoB' : foB = blkOut m d L (2 * k.val + 1) :=
    rowsDone_all (by rw [show Scf.trips k0_t3_loop.lb k0_t3_loop.ub k0_t3_loop.st = 32 from trips3] at hfoB; exact hfoB)
  subst hfoB'
  ihave DB' := (pointsTo_union (ℓ := oLoc d) (slotLT_blk_disjoint (wid L) 1 (2 * k.val - 1))).2 $$ [DB GB_dst]
  · isplitl [DB]; · iexact DB
    iexact GB_dst
  rw [← slotLT_step (wid L) 1 (2 * k.val - 1) (by omega), show 2 * k.val - 1 + 2 = 2 * k.val + 1 by omega]
  ihave TB2 := (pointsTo_split_subset (ℓ := oLoc d) (blk_subset_slotGE (wid L) 1 (2 * k.val + 1) (by omega))).1 $$ TB
  icases TB2 with ⟨OnB, TB'⟩
  rw [slotGE_sdiff (wid L) 1 (2 * k.val + 1) (by omega)]
  ihave OnB' := (Entails.of_eq (oBlkO_pts (F := F) d L k fullShare (m (oLoc d)))) $$ OnB
  ihave HxB := (pointsTo_split_subset (ℓ := xLoc d) hsB).2 $$ [FB_src XB]
  · isplitl [FB_src]; · iexact FB_src
    iexact XB
  ihave HxB2 := (pointsTo_split_subset (ℓ := xLoc d) hsB2).1 $$ HxB
  icases HxB2 with ⟨XnB, XB'⟩
  ihave XnB' := (Entails.of_eq (xBlkO_pts (F := F) d L k k0_h4 fullShare (x3 m d))) $$ XnB
  sl_exec
  sl_step
  have e1 : k.val + 1 < 42 := by omega
  have e2 : ¬ (k.val + 1 = 0) := by omega
  rw [if_pos e1, if_pos e1, if_neg e2, if_neg e2]
  rw [show 2 * (k.val + 1) = 2 * k.val + 2 by omega, show 2 * k.val + 2 + 1 = 2 * k.val + 3 by omega,
    show 2 * k.val + 2 - 2 = 2 * k.val by omega, show 2 * k.val + 2 - 1 = 2 * k.val + 1 by omega]
  icases Hob with -
  icases HobB with -
  isplitr; · iexact Hmw
  isplitl [FA XA']
  · isplitl [FA]
    · iapply (Transfers.Flight_mono countersEmb (thrV d L)
        (BIClass.sep_mono (Entails.of_eq (congrArg (fun f => (ibA.view.loc (thrV d L) ↦{fullShare} f : sProp 𝕄))
            (landed_inE m d L k k0_h2 (blkIn m d L (2 * k.val)))))
          (Entails.of_eq (xBlkE_pts (F := F) d L k k0_h2 fullShare (x3 m d)).symm)))
      iexact FA
    · iexact XA'
  isplitl [FB XB']
  · isplitl [FB]
    · iapply (Transfers.Flight_mono countersEmb (thrV d L)
        (BIClass.sep_mono (Entails.of_eq (congrArg (fun f => (ibB.view.loc (thrV d L) ↦{fullShare} f : sProp 𝕄))
            (landed_inO m d L k k0_h4 (blkIn m d L (2 * k.val + 1)))))
          (Entails.of_eq (xBlkO_pts (F := F) d L k k0_h4 fullShare (x3 m d)).symm)))
      iexact FB
    · iexact XB'
  isplitl [GA DA' TA']
  · isplitl [GA]
    · iapply (Transfers.Flight_mono countersEmb (thrV d L)
        (BIClass.sep_mono (Entails.of_eq (landed_outE m d L k (m (oLoc d)) fullShare))
          (Entails.of_eq (obA_pts (F := F) d L (blkOut m d L (2 * k.val))))))
      iexact GA
    isplitl [DA']; · iexact DA'
    iexact TA'
  isplitl [GB DB' TB']
  · isplitl [GB]
    · iapply (Transfers.Flight_mono countersEmb (thrV d L)
        (BIClass.sep_mono (Entails.of_eq (landed_outO m d L k (m (oLoc d)) fullShare))
          (Entails.of_eq (obB_pts (F := F) d L (blkOut m d L (2 * k.val + 1))))))
      iexact GB
    isplitl [DB']; · iexact DB'
    iexact TB'
  iexists (insert (SemLoc.dma cc0_scratch7.sem, (default : HIx 1)) (insert (SemLoc.dma cc0_scratch5.sem, (default : HIx 1))
    (insert (SemLoc.dma cc0_scratch6.sem, (default : HIx 1)) (insert (SemLoc.dma cc0_scratch4.sem, (default : HIx 1)) W'))))
  isplitr
  · ipureintro
    intro q hq
    simp only [Finset.mem_insert] at hq
    rcases hq with rfl | rfl | rfl | rfl | hq
    · exact Or.inr rfl
    · exact Or.inr rfl
    · exact Or.inr rfl
    · exact Or.inr rfl
    · exact hW' q hq
  · iexact HO

end Cert.KernelIdeal.Hand

end
-- ==== Proof.KernelIdealHand.TripFirst.lean ====
import proofs.«204259_g20779051778567_cont_8to1_992_21_alg».proof.Proof.KernelIdealHand.Common
import proofs.«204259_g20779051778567_cont_8to1_992_21_alg».proof.Proof.KernelIdealHand.TripMid

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-- Trip 0 keeps the invariant: no block of the result is written yet. -/
theorem trip_first (m : (ℓ : Loc nD τ sig) → Buf (Elt F) ℓ) (d : Dev nD) (L : grid0.Coords)
    (O : CellTallies nD τ sig (HIx 1)) (W : Waits sig (HIx 1)) (v2 : BitVec 32) (k : Fin k0_t1_loop.trips)
    (hk0 : k.val = 0) :
    inv m d L O W k.val ()
      ⊢ wp frame (wpE (defs₀ (F := F)) 𝒱₀ (thrV d L) none) Set.univ
          (k0_t1_body L xV (Memref.isWhole_whole _) oV (Memref.isWhole_whole _) ibA (Memref.isWhole_whole _) ibB (Memref.isWhole_whole _)
            obA (Memref.isWhole_whole _) obB (Memref.isWhole_whole _) cc0_scratch4 cc0_scratch5 cc0_scratch6 cc0_scratch7 v2 k ())
          (fun r => inv m d L O W (k.val + 1) r) := by
  have hk : k.val < 42 := by omega
  have hsA : blkSet (wid L) (2 * k.val) ⊆ slotSet (wid L) 0 := by
    have := blk_subset_slot (wid L) (2 * k.val); rwa [Nat.mul_mod_right] at this
  have hsB : blkSet (wid L) (2 * k.val + 1) ⊆ slotSet (wid L) 1 := by
    have := blk_subset_slot (wid L) (2 * k.val + 1); rwa [show (2 * k.val + 1) % 2 = 1 by omega] at this
  have hsA2 : blkSet (wid L) (2 * k.val + 2) ⊆ slotSet (wid L) 0 := by
    have := blk_subset_slot (wid L) (2 * k.val + 2); rwa [show (2 * k.val + 2) % 2 = 0 by omega] at this
  have hsB2 : blkSet (wid L) (2 * k.val + 3) ⊆ slotSet (wid L) 1 := by
    have := blk_subset_slot (wid L) (2 * k.val + 3); rwa [show (2 * k.val + 3) % 2 = 1 by omega] at this
  unfold inv inA inB outA outB
  rw [if_pos hk, if_pos hk, if_pos hk0, if_pos hk0]
  iintro ⟨#Hmw, ⟨FA, XA⟩, ⟨FB, XB⟩, ⟨⟨%fc, Hc⟩, GA, TA⟩, ⟨⟨%fd, Hd⟩, GB, TB⟩, %W', %hW', HO⟩
  have hcA := condA_neg k hk0
  have hcB := condB_neg k hk0
  have k0_h2 : k0_cond2 k = 1#1 := (cond2_iff k).2 (by omega)
  have k0_h4 : k0_cond4 k = 1#1 := (cond4_iff k).2 (by omega)
  unfold k0_t1_body
  sl_exec
  sl_for (rowInvA d L (blkIn m d L (2 * k.val))) $$ [FA_dst Hc]
  case region =>
    intro kk acc
    exact trip_A d L v2 0#32 1#32 k kk (blkIn m d L (2 * k.val))
  · unfold rowInvA
    isplitl [FA_dst]; · iexact FA_dst
    iexists fc
    isplitr
    · ipureintro; intro y hy; omega
    · iexact Hc
  iintro %_ HI
  unfold rowInvA
  icases HI with ⟨Hib, %fo, %hfo, Hob⟩
  have hfo' : fo = blkOut m d L (2 * k.val) :=
    rowsDone_all (by rw [show Scf.trips k0_t2_loop.lb k0_t2_loop.ub k0_t2_loop.st = 32 from trips2] at hfo; exact hfo)
  subst hfo'
  have eTA : slotSet (wid L) 0 = slotGE (wid L) 0 (2 * k.val) := by
    rw [hk0]; exact (slotGE_zero (wid L) 0).symm
  ihave TA := (Entails.of_eq (congrArg (fun S => (oLoc d ↦[S]{fullShare} m (oLoc d) : sProp 𝕄)) eTA)) $$ TA
  ihave TA2 := (pointsTo_split_subset (ℓ := oLoc d) (blk_subset_slotGE (wid L) 0 (2 * k.val) (by omega))).1 $$ TA
  icases TA2 with ⟨On, TA'⟩
  rw [slotGE_sdiff (wid L) 0 (2 * k.val) (by omega)]
  ihave On' := (Entails.of_eq (oBlkE_pts (F := F) d L k fullShare (m (oLoc d)))) $$ On
  ihave Hx := (pointsTo_split_subset (ℓ := xLoc d) hsA).2 $$ [FA_src XA]
  · isplitl [FA_src]; · iexact FA_src
    iexact XA
  ihave Hx2 := (pointsTo_split_subset (ℓ := xLoc d) hsA2).1 $$ Hx
  icases Hx2 with ⟨Xn, XA'⟩
  ihave Xn' := (Entails.of_eq (xBlkE_pts (F := F) d L k k0_h2 fullShare (x3 m d))) $$ Xn
  sl_exec
  sl_for (rowInvB d L (blkIn m d L (2 * k.val + 1))) $$ [FB_dst Hd]
  case region =>
    intro kk acc
    exact trip_B d L v2 _ _ k kk (blkIn m d L (2 * k.val + 1))
  · unfold rowInvB
    isplitl [FB_dst]; · iexact FB_dst
    iexists fd
    isplitr
    · ipureintro; intro y hy; omega
    · iexact Hd
  iintro %_ HI
  unfold rowInvB
  icases HI with ⟨HibB, %foB, %hfoB, HobB⟩
  have hfoB' : foB = blkOut m d L (2 * k.val + 1) :=
    rowsDone_all (by rw [show Scf.trips k0_t3_loop.lb k0_t3_loop.ub k0_t3_loop.st = 32 from trips3] at hfoB; exact hfoB)
  subst hfoB'
  have eTB : slotSet (wid L) 1 = slotGE (wid L) 1 (2 * k.val + 1) := by
    ext y
    rw [mem_slotSet, mem_slotGE]
    constructor
    · rintro ⟨a, b⟩; exact ⟨a, b, by omega⟩
    · rintro ⟨a, b, -⟩; exact ⟨a, b⟩
  ihave TB := (Entails.of_eq (congrArg (fun S => (oLoc d ↦[S]{fullShare} m (oLoc d) : sProp 𝕄)) eTB)) $$ TB
  ihave TB2 := (pointsTo_split_subset (ℓ := oLoc d) (blk_subset_slotGE (wid L) 1 (2 * k.val + 1) (by omega))).1 $$ TB
  icases TB2 with ⟨OnB, TB'⟩
  rw [slotGE_sdiff (wid L) 1 (2 * k.val + 1) (by omega)]
  ihave OnB' := (Entails.of_eq (oBlkO_pts (F := F) d L k fullShare (m (oLoc d)))) $$ OnB
  ihave HxB := (pointsTo_split_subset (ℓ := xLoc d) hsB).2 $$ [FB_src XB]
  · isplitl [FB_src]; · iexact FB_src
    iexact XB
  ihave HxB2 := (pointsTo_split_subset (ℓ := xLoc d) hsB2).1 $$ HxB
  icases HxB2 with ⟨XnB, XB'⟩
  ihave XnB' := (Entails.of_eq (xBlkO_pts (F := F) d L k k0_h4 fullShare (x3 m d))) $$ XnB
  sl_exec
  sl_step
  have e1 : k.val + 1 < 42 := by omega
  have e2 : ¬ (k.val + 1 = 0) := by omega
  rw [if_pos e1, if_pos e1, if_neg e2, if_neg e2]
  rw [show 2 * (k.val + 1) = 2 * k.val + 2 by omega, show 2 * k.val + 2 + 1 = 2 * k.val + 3 by omega,
    show 2 * k.val + 2 - 2 = 2 * k.val by omega, show 2 * k.val + 2 - 1 = 2 * k.val + 1 by omega]
  have eLA : slotLT (wid L) 0 (2 * k.val) = ∅ := by
    rw [hk0]; exact slotLT_zero (wid L) 0
  have eLB : slotLT (wid L) 1 (2 * k.val + 1) = ∅ := by
    ext y
    rw [mem_slotLT]
    constructor
    · rintro ⟨-, b, c⟩; omega
    · intro h; simp at h
  rw [eLA, eLB, pointsTo_empty]
  icases Hob with -
  icases HobB with -
  isplitr; · iexact Hmw
  isplitl [FA XA']
  · isplitl [FA]
    · iapply (Transfers.Flight_mono countersEmb (thrV d L)
        (BIClass.sep_mono (Entails.of_eq (congrArg (fun f => (ibA.view.loc (thrV d L) ↦{fullShare} f : sProp 𝕄))
            (landed_inE m d L k k0_h2 (blkIn m d L (2 * k.val)))))
          (Entails.of_eq (xBlkE_pts (F := F) d L k k0_h2 fullShare (x3 m d)).symm)))
      iexact FA
    · iexact XA'
  isplitl [FB XB']
  · isplitl [FB]
    · iapply (Transfers.Flight_mono countersEmb (thrV d L)
        (BIClass.sep_mono (Entails.of_eq (congrArg (fun f => (ibB.view.loc (thrV d L) ↦{fullShare} f : sProp 𝕄))
            (landed_inO m d L k k0_h4 (blkIn m d L (2 * k.val + 1)))))
          (Entails.of_eq (xBlkO_pts (F := F) d L k k0_h4 fullShare (x3 m d)).symm)))
      iexact FB
    · iexact XB'
  isplitl [GA TA']
  · isplitl [GA]
    · iapply (Transfers.Flight_mono countersEmb (thrV d L)
        (BIClass.sep_mono (Entails.of_eq (landed_outE m d L k (m (oLoc d)) fullShare))
          (Entails.of_eq (obA_pts (F := F) d L (blkOut m d L (2 * k.val))))))
      iexact GA
    isplitr; · iempintro
    iexact TA'
  isplitl [GB TB']
  · isplitl [GB]
    · iapply (Transfers.Flight_mono countersEmb (thrV d L)
        (BIClass.sep_mono (Entails.of_eq (landed_outO m d L k (m (oLoc d)) fullShare))
          (Entails.of_eq (obB_pts (F := F) d L (blkOut m d L (2 * k.val + 1))))))
      iexact GB
    isplitr; · iempintro
    iexact TB'
  iexists (insert (SemLoc.dma cc0_scratch5.sem, (default : HIx 1)) (insert (SemLoc.dma cc0_scratch4.sem, (default : HIx 1)) W'))
  isplitr
  · ipureintro
    intro q hq
    simp only [Finset.mem_insert] at hq
    rcases hq with rfl | rfl | hq
    · exact Or.inr rfl
    · exact Or.inr rfl
    · exact hW' q hq
  · iexact HO

end Cert.KernelIdeal.Hand

end
-- ==== Proof.KernelIdealHand.TripLast.lean ====
import proofs.«204259_g20779051778567_cont_8to1_992_21_alg».proof.Proof.KernelIdealHand.Common
import proofs.«204259_g20779051778567_cont_8to1_992_21_alg».proof.Proof.KernelIdealHand.TripMid

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-- Trip 41 keeps the invariant: no block of the input is left. -/
theorem trip_last (m : (ℓ : Loc nD τ sig) → Buf (Elt F) ℓ) (d : Dev nD) (L : grid0.Coords)
    (O : CellTallies nD τ sig (HIx 1)) (W : Waits sig (HIx 1)) (v2 : BitVec 32) (k : Fin k0_t1_loop.trips)
    (hk41 : k.val = 41) :
    inv m d L O W k.val ()
      ⊢ wp frame (wpE (defs₀ (F := F)) 𝒱₀ (thrV d L) none) Set.univ
          (k0_t1_body L xV (Memref.isWhole_whole _) oV (Memref.isWhole_whole _) ibA (Memref.isWhole_whole _) ibB (Memref.isWhole_whole _)
            obA (Memref.isWhole_whole _) obB (Memref.isWhole_whole _) cc0_scratch4 cc0_scratch5 cc0_scratch6 cc0_scratch7 v2 k ())
          (fun r => inv m d L O W (k.val + 1) r) := by
  have hk : k.val < 42 := by omega
  have hk0 : ¬ k.val = 0 := by omega
  have hk1 : 1 ≤ k.val := by omega
  have hsA : blkSet (wid L) (2 * k.val) ⊆ slotSet (wid L) 0 := by
    have := blk_subset_slot (wid L) (2 * k.val); rwa [Nat.mul_mod_right] at this
  have hsB : blkSet (wid L) (2 * k.val + 1) ⊆ slotSet (wid L) 1 := by
    have := blk_subset_slot (wid L) (2 * k.val + 1); rwa [show (2 * k.val + 1) % 2 = 1 by omega] at this
  unfold inv inA inB outA outB
  rw [if_pos hk, if_pos hk, if_neg hk0, if_neg hk0]
  iintro ⟨#Hmw, ⟨FA, XA⟩, ⟨FB, XB⟩, ⟨GA, DA, TA⟩, ⟨GB, DB, TB⟩, %W', %hW', HO⟩
  have hcA := condA_pos k hk1
  have hcB := condB_pos k hk1
  have k0_h2 : ¬ k0_cond2 k = 1#1 := fun h => by have := (cond2_iff k).1 h; omega
  have k0_h4 : ¬ k0_cond4 k = 1#1 := fun h => by have := (cond4_iff k).1 h; omega
  unfold k0_t1_body
  sl_exec
  sl_for (rowInvA d L (blkIn m d L (2 * k.val))) $$ [FA_dst GA_src]
  case region =>
    intro kk acc
    exact trip_A d L v2 0#32 1#32 k kk (blkIn m d L (2 * k.val))
  · unfold rowInvA
    isplitl [FA_dst]; · iexact FA_dst
    iexists (blkOut m d L (2 * k.val - 2))
    isplitr
    · ipureintro; intro y hy; omega
    · iexact GA_src
  iintro %_ HI
  unfold rowInvA
  icases HI with ⟨Hib, %fo, %hfo, Hob⟩
  have hfo' : fo = blkOut m d L (2 * k.val) :=
    rowsDone_all (by rw [show Scf.trips k0_t2_loop.lb k0_t2_loop.ub k0_t2_loop.st = 32 from trips2] at hfo; exact hfo)
  subst hfo'
  ihave DA' := (pointsTo_union (ℓ := oLoc d) (slotLT_blk_disjoint (wid L) 0 (2 * k.val - 2))).2 $$ [DA GA_dst]
  · isplitl [DA]; · iexact DA
    iexact GA_dst
  rw [← slotLT_step (wid L) 0 (2 * k.val - 2) (by omega), show 2 * k.val - 2 + 2 = 2 * k.val by omega]
  ihave TA2 := (pointsTo_split_subset (ℓ := oLoc d) (blk_subset_slotGE (wid L) 0 (2 * k.val) (by omega))).1 $$ TA
  icases TA2 with ⟨On, TA'⟩
  rw [slotGE_sdiff (wid L) 0 (2 * k.val) (by omega)]
  ihave On' := (Entails.of_eq (oBlkE_pts (F := F) d L k fullShare (m (oLoc d)))) $$ On
  ihave Hx := (pointsTo_split_subset (ℓ := xLoc d) hsA).2 $$ [FA_src XA]
  · isplitl [FA_src]; · iexact FA_src
    iexact XA
  sl_exec
  sl_for (rowInvB d L (blkIn m d L (2 * k.val + 1))) $$ [FB_dst GB_src]
  case region =>
    intro kk acc
    exact trip_B d L v2 _ _ k kk (blkIn m d L (2 * k.val + 1))
  · unfold rowInvB
    isplitl [FB_dst]; · iexact FB_dst
    iexists (blkOut m d L (2 * k.val - 1))
    isplitr
    · ipureintro; intro y hy; omega
    · iexact GB_src
  iintro %_ HI
  unfold rowInvB
  icases HI with ⟨HibB, %foB, %hfoB, HobB⟩
  have hfoB' : foB = blkOut m d L (2 * k.val + 1) :=
    rowsDone_all (by rw [show Scf.trips k0_t3_loop.lb k0_t3_loop.ub k0_t3_loop.st = 32 from trips3] at hfoB; exact hfoB)
  subst hfoB'
  ihave DB' := (pointsTo_union (ℓ := oLoc d) (slotLT_blk_disjoint (wid L) 1 (2 * k.val - 1))).2 $$ [DB GB_dst]
  · isplitl [DB]; · iexact DB
    iexact GB_dst
  rw [← slotLT_step (wid L) 1 (2 * k.val - 1) (by omega), show 2 * k.val - 1 + 2 = 2 * k.val + 1 by omega]
  ihave TB2 := (pointsTo_split_subset (ℓ := oLoc d) (blk_subset_slotGE (wid L) 1 (2 * k.val + 1) (by omega))).1 $$ TB
  icases TB2 with ⟨OnB, TB'⟩
  rw [slotGE_sdiff (wid L) 1 (2 * k.val + 1) (by omega)]
  ihave OnB' := (Entails.of_eq (oBlkO_pts (F := F) d L k fullShare (m (oLoc d)))) $$ OnB
  ihave HxB := (pointsTo_split_subset (ℓ := xLoc d) hsB).2 $$ [FB_src XB]
  · isplitl [FB_src]; · iexact FB_src
    iexact XB
  sl_exec
  sl_step
  have e1 : ¬ (k.val + 1 < 42) := by omega
  have e2 : ¬ (k.val + 1 = 0) := by omega
  rw [if_neg e1, if_neg e1, if_neg e2, if_neg e2]
  rw [show 2 * (k.val + 1) = 2 * k.val + 2 by omega, show 2 * k.val + 2 + 1 = 2 * k.val + 3 by omega,
    show 2 * k.val + 2 - 2 = 2 * k.val by omega, show 2 * k.val + 2 - 1 = 2 * k.val + 1 by omega]
  icases Hob with -
  icases HobB with -
  isplitr; · iexact Hmw
  isplitl [Hib FA Hx]
  · isplitl [Hib]
    · iexists _; iexact Hib
    isplitl [FA]; · iexact FA
    iexact Hx
  isplitl [HibB FB HxB]
  · isplitl [HibB]
    · iexists _; iexact HibB
    isplitl [FB]; · iexact FB
    iexact HxB
  isplitl [GA DA' TA']
  · isplitl [GA]
    · iapply (Transfers.Flight_mono countersEmb (thrV d L)
        (BIClass.sep_mono (Entails.of_eq (landed_outE m d L k (m (oLoc d)) fullShare))
          (Entails.of_eq (obA_pts (F := F) d L (blkOut m d L (2 * k.val))))))
      iexact GA
    isplitl [DA']; · iexact DA'
    iexact TA'
  isplitl [GB DB' TB']
  · isplitl [GB]
    · iapply (Transfers.Flight_mono countersEmb (thrV d L)
        (BIClass.sep_mono (Entails.of_eq (landed_outO m d L k (m (oLoc d)) fullShare))
          (Entails.of_eq (obB_pts (F := F) d L (blkOut m d L (2 * k.val + 1))))))
      iexact GB
    isplitl [DB']; · iexact DB'
    iexact TB'
  iexists (insert (SemLoc.dma cc0_scratch7.sem, (default : HIx 1)) (insert (SemLoc.dma cc0_scratch5.sem, (default : HIx 1))
    (insert (SemLoc.dma cc0_scratch6.sem, (default : HIx 1)) (insert (SemLoc.dma cc0_scratch4.sem, (default : HIx 1)) W'))))
  isplitr
  · ipureintro
    intro q hq
    simp only [Finset.mem_insert] at hq
    rcases hq with rfl | rfl | rfl | rfl | hq
    · exact Or.inr rfl
    · exact Or.inr rfl
    · exact Or.inr rfl
    · exact Or.inr rfl
    · exact hW' q hq
  · iexact HO

end Cert.KernelIdeal.Hand

end
-- ==== Proof.KernelIdealHand.Core.lean ====
import proofs.«204259_g20779051778567_cont_8to1_992_21_alg».proof.Proof.KernelIdealHand.Common
import proofs.«204259_g20779051778567_cont_8to1_992_21_alg».proof.Proof.KernelIdealHand.TripFirst
import proofs.«204259_g20779051778567_cont_8to1_992_21_alg».proof.Proof.KernelIdealHand.TripMid
import proofs.«204259_g20779051778567_cont_8to1_992_21_alg».proof.Proof.KernelIdealHand.TripLast

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-- From the invariant at 0 to the invariant at 42: the owner's rows of the result end at the rule on the array. -/
theorem tile_core (m : (ℓ : Loc nD τ sig) → Buf (Elt F) ℓ) (d : Dev nD) (L : grid0.Coords)
    (O : CellTallies nD τ sig (HIx 1)) (W : Waits sig (HIx 1)) (hO : ∀ g, O g none = 0)
    (fa : Buf (Elt F) ((thrV d L).loc cc0_scratch0)) (fb : Buf (Elt F) ((thrV d L).loc cc0_scratch1))
    (fc : Buf (Elt F) ((thrV d L).loc cc0_scratch2)) (fd : Buf (Elt F) ((thrV d L).loc cc0_scratch3)) :
    (iprop(levAts (K (F := F)).L (K (F := F)).lev
        ∗ ((xLoc d ↦[tileSet (wid L)]{fullShare} x3 m d) ∗ (oLoc d ↦[tileSet (wid L)]{fullShare} m (oLoc d)))
        ∗ (((thrV d L).loc cc0_scratch0 ↦{fullShare} fa) ∗ ((thrV d L).loc cc0_scratch1 ↦{fullShare} fb)
          ∗ ((thrV d L).loc cc0_scratch2 ↦{fullShare} fc) ∗ ((thrV d L).loc cc0_scratch3 ↦{fullShare} fd))
        ∗ (semVal (thrV d L, SemLoc.dma cc0_scratch4.sem) 0 ∗ semVal (thrV d L, SemLoc.dma cc0_scratch5.sem) 0
          ∗ semVal (thrV d L, SemLoc.dma cc0_scratch6.sem) 0 ∗ semVal (thrV d L, SemLoc.dma cc0_scratch7.sem) 0)
        ∗ owes (thrV d L) O W) : sProp 𝕄)
      ⊢ wp frame (wpE (defs₀ (F := F)) 𝒱₀ (thrV d L) none) Set.univ
          (cc0_k L xV (Memref.isWhole_whole _) oV (Memref.isWhole_whole _) ibA (Memref.isWhole_whole _) ibB (Memref.isWhole_whole _)
            obA (Memref.isWhole_whole _) obB (Memref.isWhole_whole _) cc0_scratch4 cc0_scratch5 cc0_scratch6 cc0_scratch7)
          fun _ => iprop(((xLoc d ↦[tileSet (wid L)]{fullShare} x3 m d) ∗ (oLoc d ↦[tileSet (wid L)]{fullShare} o3 m d))
            ∗ ((∃ f, (thrV d L).loc cc0_scratch0 ↦{fullShare} f) ∗ (∃ f, (thrV d L).loc cc0_scratch1 ↦{fullShare} f)
              ∗ (∃ f, (thrV d L).loc cc0_scratch2 ↦{fullShare} f) ∗ (∃ f, (thrV d L).loc cc0_scratch3 ↦{fullShare} f))
            ∗ (semVal (thrV d L, SemLoc.dma cc0_scratch4.sem) 0 ∗ semVal (thrV d L, SemLoc.dma cc0_scratch5.sem) 0
              ∗ semVal (thrV d L, SemLoc.dma cc0_scratch6.sem) 0 ∗ semVal (thrV d L, SemLoc.dma cc0_scratch7.sem) 0)
            ∗ ∃ W', ⌜∀ p ∈ W', p ∈ W ∨ p.2 = none⌝ ∗ owes (thrV d L) O W') := by
  have hs0 : blkSet (wid L) 0 ⊆ slotSet (wid L) 0 := blk_subset_slot (wid L) 0
  have hs1 : blkSet (wid L) 1 ⊆ slotSet (wid L) 1 := blk_subset_slot (wid L) 1
  rw [cc0_k_eq_skeleton]; unfold cc0_k_skel
  rw [← slot_union (wid L)]
  iintro ⟨#Hlv, ⟨Hx, Ho⟩, ⟨Ha, Hb, Hc, Hd⟩, ⟨S4, S5, S6, S7⟩, HO⟩
  ihave Hmw := ((K (F := F)).mayWaits_none (thr := thrV d L) hO) $$ Hlv
  ihave Hx2 := (pointsTo_union (ℓ := xLoc d) (slot_disjoint (wid L))).1 $$ Hx
  icases Hx2 with ⟨Hx0, Hx1⟩
  ihave Ho2 := (pointsTo_union (ℓ := oLoc d) (slot_disjoint (wid L))).1 $$ Ho
  icases Ho2 with ⟨Ho0, Ho1⟩
  ihave X0 := (pointsTo_split_subset (ℓ := xLoc d) hs0).1 $$ Hx0
  icases X0 with ⟨Xb0, XA⟩
  ihave X1 := (pointsTo_split_subset (ℓ := xLoc d) hs1).1 $$ Hx1
  icases X1 with ⟨Xb1, XB⟩
  ihave Xb0' := (Entails.of_eq (xBlk0_pts (F := F) d L fullShare (x3 m d))) $$ Xb0
  ihave Xb1' := (Entails.of_eq (xBlk1_pts (F := F) d L fullShare (x3 m d))) $$ Xb1
  ihave Ha' := (Entails.of_eq (show ((thrV d L).loc cc0_scratch0 ↦{fullShare} fa : sProp 𝕄)
    = (ibA.view.loc (thrV d L) ↦{fullShare} fa) from rfl)) $$ Ha
  ihave Hb' := (Entails.of_eq (show ((thrV d L).loc cc0_scratch1 ↦{fullShare} fb : sProp 𝕄)
    = (ibB.view.loc (thrV d L) ↦{fullShare} fb) from rfl)) $$ Hb
  ihave Hc' := (Entails.of_eq (show ((thrV d L).loc cc0_scratch2 ↦{fullShare} fc : sProp 𝕄)
    = (obA.view.loc (thrV d L) ↦{fullShare} fc) from rfl)) $$ Hc
  ihave Hd' := (Entails.of_eq (show ((thrV d L).loc cc0_scratch3 ↦{fullShare} fd : sProp 𝕄)
    = (obB.view.loc (thrV d L) ↦{fullShare} fd) from rfl)) $$ Hd
  sl_exec
  sl_for (inv m d L O W) $$ [Hmw S4 XA S5 XB Hc' S6 Ho0 Hd' S7 Ho1 HO]
  case region =>
    intro k acc
    have hk : k.val < 42 := lt_of_lt_of_eq k.isLt trips1
    rcases Nat.eq_zero_or_pos k.val with h0 | h1
    · exact trip_first m d L O W _ k h0
    · rcases Nat.lt_or_ge k.val 41 with h40 | h41
      · exact trip_mid m d L O W _ k h1 h40
      · exact trip_last m d L O W _ k (by omega)
  · unfold inv inA inB outA outB
    rw [if_pos (show 0 < 42 by decide), if_pos (show 0 < 42 by decide), if_pos rfl, if_pos rfl]
    isplitr; · iexact Hmw
    isplitl [S4 XA]
    · isplitl [S4]
      · iapply (Transfers.Flight_mono countersEmb (thrV d L)
          (BIClass.sep_mono (Entails.of_eq (congrArg (fun f => (ibA.view.loc (thrV d L) ↦{fullShare} f : sProp 𝕄))
              (landed_in0 m d L fa)))
            (Entails.of_eq (xBlk0_pts (F := F) d L fullShare (x3 m d)).symm)))
        iexact S4
      · iexact XA
    isplitl [S5 XB]
    · isplitl [S5]
      · iapply (Transfers.Flight_mono countersEmb (thrV d L)
          (BIClass.sep_mono (Entails.of_eq (congrArg (fun f => (ibB.view.loc (thrV d L) ↦{fullShare} f : sProp 𝕄))
              (landed_in1 m d L fb)))
            (Entails.of_eq (xBlk1_pts (F := F) d L fullShare (x3 m d)).symm)))
        iexact S5
      · iexact XB
    isplitl [Hc' S6 Ho0]
    · isplitl [Hc']; · iexists fc; iexact Hc'
      isplitl [S6]; · iexact S6
      iexact Ho0
    isplitl [Hd' S7 Ho1]
    · isplitl [Hd']; · iexists fd; iexact Hd'
      isplitl [S7]; · iexact S7
      iexact Ho1
    iexists W
    isplitr
    · ipureintro; exact fun q hq => Or.inl hq
    · iexact HO
  iintro %_ HI
  unfold inv inA inB outA outB
  rw [show Scf.trips k0_t1_loop.lb k0_t1_loop.ub k0_t1_loop.st = 42 from trips1]
  rw [if_neg (show ¬ 42 < 42 by decide), if_neg (show ¬ 42 < 42 by decide), if_neg (show ¬ 42 = 0 by decide), if_neg (show ¬ 42 = 0 by decide)]
  icases HI with ⟨-, ⟨⟨%fa', Ha⟩, S4, Hx0⟩, ⟨⟨%fb', Hb⟩, S5, Hx1⟩, ⟨GA, DA, TA⟩, ⟨GB, DB, TB⟩, %W', %hW', HO⟩
  sl_exec
  sl_step
  ihave OA := (pointsTo_union (ℓ := oLoc d) (slotLT_blk_disjoint (wid L) 0 (2 * 42 - 2))).2 $$ [DA GA_dst]
  · isplitl [DA]; · iexact DA
    iexact GA_dst
  ihave OB := (pointsTo_union (ℓ := oLoc d) (slotLT_blk_disjoint (wid L) 1 (2 * 42 - 1))).2 $$ [DB GB_dst]
  · isplitl [DB]; · iexact DB
    iexact GB_dst
  rw [← slotLT_step (wid L) 0 (2 * 42 - 2) (by decide), slotLT_all (wid L) 0 (2 * 42 - 2 + 2) (by decide),
    ← slotLT_step (wid L) 1 (2 * 42 - 1) (by decide), slotLT_all (wid L) 1 (2 * 42 - 1 + 2) (by decide)]
  icases TA with -
  icases TB with -
  isplitl [Hx0 Hx1 OA OB]
  · isplitl [Hx0 Hx1]
    · iapply (pointsTo_union (ℓ := xLoc d) (slot_disjoint (wid L))).2
      isplitl [Hx0]; · iexact Hx0
      iexact Hx1
    · iapply (pointsTo_union (ℓ := oLoc d) (slot_disjoint (wid L))).2
      isplitl [OA]; · iexact OA
      iexact OB
  isplitl [Ha Hb GA_src GB_src]
  · isplitl [Ha]; · iexists fa'; iexact Ha
    isplitl [Hb]; · iexists fb'; iexact Hb
    isplitl [GA_src]; · iexists (blkOut m d L (2 * 42 - 2)); iexact GA_src
    iexists (blkOut m d L (2 * 42 - 1)); iexact GB_src
  isplitl [S4 S5 GA GB]
  · isplitl [S4]; · iexact S4
    isplitl [S5]; · iexact S5
    isplitl [GA]; · iexact GA
    iexact GB
  iexists (insert (SemLoc.dma cc0_scratch7.sem, (default : HIx 1)) (insert (SemLoc.dma cc0_scratch6.sem, (default : HIx 1)) W'))
  isplitr
  · ipureintro
    intro q hq
    simp only [Finset.mem_insert] at hq
    rcases hq with rfl | rfl | hq
    · exact Or.inr rfl
    · exact Or.inr rfl
    · exact hW' q hq
  · iexact HO

end Cert.KernelIdeal.Hand

end
-- ==== Proof.KernelIdealHand.Body.lean ====
import proofs.«204259_g20779051778567_cont_8to1_992_21_alg».proof.Proof.KernelIdealHand.Common
import proofs.«204259_g20779051778567_cont_8to1_992_21_alg».proof.Proof.KernelIdealHand.Core

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

section Own
variable (d : Dev nD) (L : grid0.Coords)

abbrev restCells : Finset (GSem nD τ sig) :=
  ((((ownCells (V d (cV L) (jV L))).erase (V d (cV L) (jV L), SemLoc.dma cc0_scratch4.sem)).erase
    (V d (cV L) (jV L), SemLoc.dma cc0_scratch5.sem)).erase (V d (cV L) (jV L), SemLoc.dma cc0_scratch6.sem)).erase
    (V d (cV L) (jV L), SemLoc.dma cc0_scratch7.sem)

abbrev restRefs : Finset (DevRef τ sig) :=
  ((((ownRefs (τ := τ) (.scVector (cV L) (jV L))).erase ((Proc.scVector (cV L) (jV L)).devRef cc0_scratch0)).erase
    ((Proc.scVector (cV L) (jV L)).devRef cc0_scratch1)).erase ((Proc.scVector (cV L) (jV L)).devRef cc0_scratch2)).erase
    ((Proc.scVector (cV L) (jV L)).devRef cc0_scratch3)

omit [FloatOps F] in
/-- The four semaphores and the four scratch buffers the program names are among the thread's own cells and buffers. -/
theorem ownSems0_V :
    (ownSems0 (V d (cV L) (jV L)) : sProp 𝕄)
      = iprop(semVal (V d (cV L) (jV L), SemLoc.dma cc0_scratch4.sem) 0 ∗ semVal (V d (cV L) (jV L), SemLoc.dma cc0_scratch5.sem) 0
          ∗ semVal (V d (cV L) (jV L), SemLoc.dma cc0_scratch6.sem) 0 ∗ semVal (V d (cV L) (jV L), SemLoc.dma cc0_scratch7.sem) 0
          ∗ bigSep (restCells d L) fun g => semVal g 0) := by
  have hne : ∀ {s s' : SemLoc sig}, s ≠ s' →
      ((V d (cV L) (jV L), s) : GSem nD τ sig) ≠ (V d (cV L) (jV L), s') := fun h e => h (congrArg Prod.snd e)
  have h4 : ((V d (cV L) (jV L), SemLoc.dma cc0_scratch4.sem) : GSem nD τ sig) ∈ ownCells (V d (cV L) (jV L)) :=
    mem_ownCells.mpr ⟨rfl, by show (SemLoc.dma cc0_scratch4.sem : SemLoc sig).isScoped .scVector = true; decide⟩
  have h5 : ((V d (cV L) (jV L), SemLoc.dma cc0_scratch5.sem) : GSem nD τ sig) ∈ ownCells (V d (cV L) (jV L)) :=
    mem_ownCells.mpr ⟨rfl, by show (SemLoc.dma cc0_scratch5.sem : SemLoc sig).isScoped .scVector = true; decide⟩
  have h6 : ((V d (cV L) (jV L), SemLoc.dma cc0_scratch6.sem) : GSem nD τ sig) ∈ ownCells (V d (cV L) (jV L)) :=
    mem_ownCells.mpr ⟨rfl, by show (SemLoc.dma cc0_scratch6.sem : SemLoc sig).isScoped .scVector = true; decide⟩
  have h7 : ((V d (cV L) (jV L), SemLoc.dma cc0_scratch7.sem) : GSem nD τ sig) ∈ ownCells (V d (cV L) (jV L)) :=
    mem_ownCells.mpr ⟨rfl, by show (SemLoc.dma cc0_scratch7.sem : SemLoc sig).isScoped .scVector = true; decide⟩
  unfold SparseCore.Cfg.ownSems0
  rw [SparseCore.bigSep_erase' h4,
    SparseCore.bigSep_erase' (Finset.mem_erase.mpr ⟨hne (by decide), h5⟩),
    SparseCore.bigSep_erase' (Finset.mem_erase.mpr ⟨hne (by decide), Finset.mem_erase.mpr ⟨hne (by decide), h6⟩⟩),
    SparseCore.bigSep_erase' (Finset.mem_erase.mpr ⟨hne (by decide), Finset.mem_erase.mpr ⟨hne (by decide),
      Finset.mem_erase.mpr ⟨hne (by decide), h7⟩⟩⟩)]

omit [FloatOps F] in
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ (∃ f, (V d (cV L) (jV L)).loc cc0_scratch3 ↦{fullShare} f)
          ∗ bigSep (restRefs L) fun b => iprop(∃ f, ((d, b) : Loc nD τ sig) ↦{fullShare} f)) := by
  have hne : ∀ {r r' : Ref sig .scVector}, r ≠ r' →
      (Proc.scVector (cV L) (jV L)).devRef r ≠ (Proc.scVector (cV L) (jV L)).devRef r' :=
    fun h e => h (Proc.devRef_injective _ e)
  have h0 : (Proc.scVector (cV L) (jV L)).devRef cc0_scratch0 ∈ ownRefs (τ := τ) (.scVector (cV L) (jV L)) :=
    SparseCore.Cfg.mem_ownRefs_of_owner (p := Proc.scVector (cV L) (jV L)) (b := (Proc.scVector (cV L) (jV L)).devRef cc0_scratch0) rfl
  have h1 : (Proc.scVector (cV L) (jV L)).devRef cc0_scratch1 ∈ ownRefs (τ := τ) (.scVector (cV L) (jV L)) :=
    SparseCore.Cfg.mem_ownRefs_of_owner (p := Proc.scVector (cV L) (jV L)) (b := (Proc.scVector (cV L) (jV L)).devRef cc0_scratch1) rfl
  have h2 : (Proc.scVector (cV L) (jV L)).devRef cc0_scratch2 ∈ ownRefs (τ := τ) (.scVector (cV L) (jV L)) :=
    SparseCore.Cfg.mem_ownRefs_of_owner (p := Proc.scVector (cV L) (jV L)) (b := (Proc.scVector (cV L) (jV L)).devRef cc0_scratch2) rfl
  have h3 : (Proc.scVector (cV L) (jV L)).devRef cc0_scratch3 ∈ ownRefs (τ := τ) (.scVector (cV L) (jV L)) :=
    SparseCore.Cfg.mem_ownRefs_of_owner (p := Proc.scVector (cV L) (jV L)) (b := (Proc.scVector (cV L) (jV L)).devRef cc0_scratch3) rfl
  unfold SparseCore.Cfg.ownBufs
  refine (SparseCore.bigSep_erase' (h0)).trans ?_
  rw [SparseCore.bigSep_erase' (Finset.mem_erase.mpr ⟨hne (show (cc0_scratch1 : Ref sig .scVector) ≠ cc0_scratch0 by decide), h1⟩),
    SparseCore.bigSep_erase' (Finset.mem_erase.mpr ⟨hne (show (cc0_scratch2 : Ref sig .scVector) ≠ cc0_scratch1 by decide),
      Finset.mem_erase.mpr ⟨hne (show (cc0_scratch2 : Ref sig .scVector) ≠ cc0_scratch0 by decide), h2⟩⟩),
    SparseCore.bigSep_erase' (Finset.mem_erase.mpr ⟨hne (show (cc0_scratch3 : Ref sig .scVector) ≠ cc0_scratch2 by decide),
      Finset.mem_erase.mpr ⟨hne (show (cc0_scratch3 : Ref sig .scVector) ≠ cc0_scratch1 by decide),
        Finset.mem_erase.mpr ⟨hne (show (cc0_scratch3 : Ref sig .scVector) ≠ cc0_scratch0 by decide), h3⟩⟩⟩)]

end Own

/-- One thread's whole task: its 48 rows of the result end at the rule applied to its rows of the input. -/
theorem tile_body (m : (ℓ : Loc nD τ sig) → Buf (Elt F) ℓ) (d : Dev nD) (L : grid0.Coords) (hF : (K (F := F)).Facts)
    (O : CellTallies nD τ sig (HIx 1)) (W : Waits sig (HIx 1)) (hO : ∀ g, O g none = 0) :
    (iprop(levAts (K (F := F)).L (K (F := F)).lev ∗ emp
        ∗ ((xLoc d ↦[tileSet (wid L)]{fullShare} x3 m d) ∗ (oLoc d ↦[tileSet (wid L)]{fullShare} m (oLoc d)))
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc0_k L xV (Memref.isWhole_whole _) oV (Memref.isWhole_whole _) ibA (Memref.isWhole_whole _) ibB (Memref.isWhole_whole _)
            obA (Memref.isWhole_whole _) obB (Memref.isWhole_whole _) cc0_scratch4 cc0_scratch5 cc0_scratch6 cc0_scratch7)
          fun _ => iprop(((xLoc d ↦[tileSet (wid L)]{fullShare} x3 m d) ∗ (oLoc d ↦[tileSet (wid L)]{fullShare} o3 m d))
            ∗ scopedBufs (V d (cV L) (jV L)) ∗ scopedSems0 (V d (cV L) (jV L))
            ∗ ∃ W', ⌜∀ p ∈ W', p ∈ W ∨ p.2 = none⌝ ∗ owes (V d (cV L) (jV L)) O W') := by
  rw [(K (F := F)).scopedBufs_V hF d (cV L) (jV L), SparseCore.Cfg.scopedSems0_V (Val := Elt F) d (cV L) (jV L),
    ownSems0_V, ownBufs_V]
  iintro ⟨#Hlv, -, Hrows, ⟨⟨%fa, Ha⟩, ⟨%fb, Hb⟩, ⟨%fc, Hc⟩, ⟨%fd, Hd⟩, Hbufs⟩, ⟨H4, H5, H6, H7, Hsems⟩, HO⟩
  iapply (wp_wand_r frame _ Set.univ)
  isplitl [Hrows Ha Hb Hc Hd H4 H5 H6 H7 HO]
  · iapply (tile_core m d L O W hO fa fb fc fd)
    isplitr; · iexact Hlv
    isplitl [Hrows]; · iexact Hrows
    isplitl [Ha Hb Hc Hd]
    · isplitl [Ha]; · iexact Ha
      isplitl [Hb]; · iexact Hb
      isplitl [Hc]; · iexact Hc
      iexact Hd
    isplitl [H4 H5 H6 H7]
    · isplitl [H4]; · iexact H4
      isplitl [H5]; · iexact H5
      isplitl [H6]; · iexact H6
      iexact H7
    iexact HO
  · iintro %_ ⟨Hrows, ⟨Ha, Hb, Hc, Hd⟩, ⟨H4, H5, H6, H7⟩, HO⟩
    isplitl [Hrows]; · iexact Hrows
    isplitl [Ha Hb Hc Hd Hbufs]
    · isplitl [Ha]; · iexact Ha
      isplitl [Hb]; · iexact Hb
      isplitl [Hc]; · iexact Hc
      isplitl [Hd]; · iexact Hd
      iexact Hbufs
    isplitl [H4 H5 H6 H7 Hsems]
    · isplitl [H4]; · iexact H4
      isplitl [H5]; · iexact H5
      isplitl [H6]; · iexact H6
      isplitl [H7]; · iexact H7
      iexact Hsems
    iexact HO

end Cert.KernelIdeal.Hand

end
-- ==== Proof.KernelIdealHand.Launch.lean ====
import proofs.«204259_g20779051778567_cont_8to1_992_21_alg».proof.Proof.KernelIdealHand.Body

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

/-- The entries of SparseCore c: those whose subcore number (row / 48) has parity c. -/
def coreSet (c : ℕ) : Finset S1536x224x224.Idx := Finset.univ.filter fun y => (y 0).val / 48 % 2 = c

theorem mem_coreSet {c : ℕ} {y : S1536x224x224.Idx} : y ∈ coreSet c ↔ (y 0).val / 48 % 2 = c := by simp [coreSet]

theorem row_lt (y : S1536x224x224.Idx) : (y 0).val < 1536 := (y 0).isLt

theorem tiles_disjoint (c : ℕ) : ∀ i ∈ (Finset.univ : Finset (Fin 16)), ∀ j ∈ (Finset.univ : Finset (Fin 16)), i ≠ j →
    Disjoint (tileSet (2 * i.val + c)) (tileSet (2 * j.val + c)) := by
  intro i _ j _ h
  refine Finset.disjoint_left.mpr fun y h1 h2 => h (Fin.ext ?_)
  rw [mem_tileSet] at h1 h2; omega

theorem tiles_cover {c : ℕ} (hc : c < 2) : (Finset.univ : Finset (Fin 16)).biUnion (fun i => tileSet (2 * i.val + c)) = coreSet c := by
  ext y
  simp only [Finset.mem_biUnion, Finset.mem_univ, true_and, mem_tileSet, mem_coreSet]
  have hy := row_lt y
  constructor
  · rintro ⟨i, hi⟩; omega
  · intro h; exact ⟨⟨(y 0).val / 48 / 2, by omega⟩, by show (y 0).val / 48 = 2 * ((y 0).val / 48 / 2) + c; omega⟩

theorem cores_disjoint : ∀ c ∈ (Finset.univ : Finset (Fin 2)), ∀ c' ∈ (Finset.univ : Finset (Fin 2)), c ≠ c' →
    Disjoint (coreSet c.val) (coreSet c'.val) := by
  intro c _ c' _ h
  refine Finset.disjoint_left.mpr fun y h1 h2 => h (Fin.ext ?_)
  rw [mem_coreSet] at h1 h2; omega
theorem cores_cover : (Finset.univ : Finset (Fin 2)).biUnion (fun c => coreSet c.val) = (Finset.univ : Finset S1536x224x224.Idx) := by
  ext y
  simp only [Finset.mem_biUnion, Finset.mem_univ, true_and, mem_coreSet, iff_true]
  exact ⟨⟨(y 0).val / 48 % 2, Nat.mod_lt _ (by decide)⟩, rfl⟩

theorem xPts_tiles (d : Dev nD) {c : ℕ} (hc : c < 2) (f : Buf (Elt F) (xLoc d)) :
    (xLoc d ↦[coreSet c]{fullShare} f : sProp 𝕄) = bigSep Finset.univ fun i : Fin 16 => xLoc d ↦[tileSet (2 * i.val + c)]{fullShare} f := by
  rw [← pointsTo_biUnion Finset.univ (ℓ := xLoc d) (fun i : Fin 16 => tileSet (2 * i.val + c)) (tiles_disjoint c), tiles_cover hc]
theorem oPts_tiles (d : Dev nD) {c : ℕ} (hc : c < 2) (f : Buf (Elt F) (oLoc d)) :
    (oLoc d ↦[coreSet c]{fullShare} f : sProp 𝕄) = bigSep Finset.univ fun i : Fin 16 => oLoc d ↦[tileSet (2 * i.val + c)]{fullShare} f := by
  rw [← pointsTo_biUnion Finset.univ (ℓ := oLoc d) (fun i : Fin 16 => tileSet (2 * i.val + c)) (tiles_disjoint c), tiles_cover hc]

theorem xPts_cores (d : Dev nD) (f : Buf (Elt F) (xLoc d)) :
    (xLoc d ↦{fullShare} f : sProp 𝕄) = bigSep Finset.univ fun c : Fin 2 => xLoc d ↦[coreSet c.val]{fullShare} f := by
  rw [← pointsTo_biUnion Finset.univ (ℓ := xLoc d) (fun c : Fin 2 => coreSet c.val) cores_disjoint, cores_cover]; try rfl
theorem oPts_cores (d : Dev nD) (f : Buf (Elt F) (oLoc d)) :
    (oLoc d ↦{fullShare} f : sProp 𝕄) = bigSep Finset.univ fun c : Fin 2 => oLoc d ↦[coreSet c.val]{fullShare} f := by
  rw [← pointsTo_biUnion Finset.univ (ℓ := oLoc d) (fun c : Fin 2 => coreSet c.val) cores_disjoint, cores_cover]; try rfl

variable [FloatOps F]

variable (m : (ℓ : Loc nD τ sig) → Buf (Elt F) ℓ) (ρ : Dev nD → PrngReg)

/-- Each SparseCore, and each subcore of it, is lent its rows of both arrays and returns them with the result at the rule. -/
def P : (K (F := F)).Pay (nD := nD) (Val := Elt F) (Name := ℕ) (U := UU) where
  st := fun _ d c => iprop((xLoc d ↦[coreSet c.val]{fullShare} x3 m d) ∗ (oLoc d ↦[coreSet c.val]{fullShare} m (oLoc d)))
  dn := fun _ d c => iprop((xLoc d ↦[coreSet c.val]{fullShare} x3 m d) ∗ (oLoc d ↦[coreSet c.val]{fullShare} o3 m d))
  go := fun _ d c i => iprop((xLoc d ↦[tileSet (2 * i.val + c.val)]{fullShare} x3 m d) ∗ (oLoc d ↦[tileSet (2 * i.val + c.val)]{fullShare} m (oLoc d)))
  td := fun _ d c i => iprop((xLoc d ↦[tileSet (2 * i.val + c.val)]{fullShare} x3 m d) ∗ (oLoc d ↦[tileSet (2 * i.val + c.val)]{fullShare} o3 m d))
  x := fun _ _ => iprop(emp)

instance P_storable : (P (F := F) m).IsStorable where
  st _ d c := by unfold P; infer_instance
  dn _ d c := by unfold P; infer_instance
  go _ _ _ _ := by unfold P; infer_instance
  td _ _ _ _ := by unfold P; infer_instance

def coordsV (c : Fin (grid0.bound 0)) (s : Fin (grid0.bound 1)) : grid0.Coords :=
  fun | 0 => c | 1 => s | ⟨_ + 2, h⟩ => absurd h (Nat.not_lt.2 (Nat.le_add_left _ _))

omit [FloatOps F] in
theorem wid_coordsV (c : Fin (grid0.bound 0)) (s : Fin (grid0.bound 1)) : wid (coordsV c s) = 2 * s.val + c.val := by simp [wid, coordsV]

theorem defs₀_vector (c : Fin τ.nSC) (s : Fin τ.nSub) :
    defs₀ (F := F) (.scVector c s) 0 ()
      = SparseCore.onTile hcore0 hsub0 (fun c s => cc0_k (coordsV c s)
          xV (Memref.isWhole_whole _) oV (Memref.isWhole_whole _) ibA (Memref.isWhole_whole _) ibB (Memref.isWhole_whole _)
          obA (Memref.isWhole_whole _) obB (Memref.isWhole_whole _) cc0_scratch4 cc0_scratch5 cc0_scratch6 cc0_scratch7) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  have hw : wid (coordsV ⟨((K (F := F)).core 0 c).val, hc.1⟩ ⟨((K (F := F)).sub 0 i).val, hc.2⟩) = 2 * i.val + c.val := wid_coordsV _ _
  have hb := tile_body m d (coordsV ⟨_, hc.1⟩ ⟨_, hc.2⟩) hF O W hO
  rw [hw] at hb
  exact hb.trans (wp_mono frame _ _ fun _ => obl_post)

/-- A SparseCore's rows are its sixteen subcores' rows. -/
theorem vecSplit : (K (F := F)).VecSplit' (P m) 0 := by
  intro d c
  have hc : c.val < 2 := c.isLt
  show iprop((xLoc d ↦[coreSet c.val]{fullShare} x3 m d) ∗ (oLoc d ↦[coreSet c.val]{fullShare} m (oLoc d))) ⊢ |={Set.univ}=> iprop(
      (bigSep Finset.univ fun i : Fin 16 =>
        iprop((xLoc d ↦[tileSet (2 * i.val + c.val)]{fullShare} x3 m d) ∗ (oLoc d ↦[tileSet (2 * i.val + c.val)]{fullShare} m (oLoc d))))
      ∗ ((bigSep Finset.univ fun i : Fin 16 =>
          iprop((xLoc d ↦[tileSet (2 * i.val + c.val)]{fullShare} x3 m d) ∗ (oLoc d ↦[tileSet (2 * i.val + c.val)]{fullShare} o3 m d)))
          -∗ iprop((xLoc d ↦[coreSet c.val]{fullShare} x3 m d) ∗ (oLoc d ↦[coreSet c.val]{fullShare} o3 m d))))
  rw [bigSep_sep', bigSep_sep', xPts_tiles d hc, oPts_tiles d hc, oPts_tiles d hc]
  iintro H; imodintro
  isplitl [H]; · iexact H
  iintro H; iexact H

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

abbrev a' : DevRef τ sig := Proc.devRef .tc (main_arg0 : Ref sig .tc)
abbrev x' : DevRef τ sig := Proc.devRef .tc (main_v0 : Ref sig .tc)
abbrev o' : DevRef τ sig := Proc.devRef .tc (main_v1 : Ref sig .tc)
abbrev r' : DevRef τ sig := Proc.devRef .tc (main_v2 : Ref sig .tc)
abbrev opIn : HloOp τ sig (Elt F) := StableHlo.reshape main_arg0 main_v0 rfl shapeCasts_S4x384x224x224_S1536x224x224
abbrev opOut : HloOp τ sig (Elt F) := StableHlo.reshape main_v1 main_v2 rfl shapeCasts_S1536x224x224_S4x384x224x224

abbrev S4 : Finset (DevRef τ sig) := {a', x', o', r'}
abbrev S3 : Finset (DevRef τ sig) := {a', o', r'}

omit [FloatOps F] in
theorem held_S4 (d : Dev nD) (W : Valuation τ sig (Elt F)) :
    (held (T d) S4 W : sProp 𝕄) = iprop((aLoc d ↦{fullShare} W a') ∗ (xLoc d ↦{fullShare} W x') ∗ (oLoc d ↦{fullShare} W o') ∗ rLoc d ↦{fullShare} W r') := by
  unfold held S4
  rw [SparseCore.bigSep_insert' (by decide), SparseCore.bigSep_insert' (by decide), SparseCore.bigSep_insert' (by decide), bigSep_singleton]
omit [FloatOps F] in
theorem held_S3 (d : Dev nD) (W : Valuation τ sig (Elt F)) :
    (held (T d) S3 W : sProp 𝕄) = iprop((aLoc d ↦{fullShare} W a') ∗ (oLoc d ↦{fullShare} W o') ∗ rLoc d ↦{fullShare} W r') := by
  unfold held S3
  rw [SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄)
      = iprop((aLoc d ↦{fullShare} W main_arg0) ∗ (xLoc d ↦{fullShare} W main_v0) ∗ (oLoc d ↦{fullShare} W main_v1) ∗ rLoc d ↦{fullShare} W main_v2) := by
  unfold unscopedBufs
  rw [show (Finset.univ.filter fun b : Ref sig .tc => ¬ b.isScoped) = {main_arg0, main_v0, main_v1, main_v2} by decide,
    SparseCore.bigSep_insert' (by decide), SparseCore.bigSep_insert' (by decide), SparseCore.bigSep_insert' (by decide), bigSep_singleton]

def V0 (d : Dev nD) : Valuation τ sig (Elt F) := fun b => m (d, b)
def V1 (d : Dev nD) : Valuation τ sig (Elt F) := Function.update (V0 m d) o' (o3 m d)

omit [FloatOps F] in
theorem unscoped_held (d : Dev nD) : (unscopedBufs d (fun b => m ((SparseCore.T d).loc b)) : sProp 𝕄) = held (T d) S4 (V0 m d) := by
  rw [unscopedBufs_eq, held_S4]; rfl

theorem V1_a (d : Dev nD) : V1 m d a' = m (aLoc d) := Function.update_of_ne (show a' ≠ o' by decide) _ _
theorem V1_o (d : Dev nD) : V1 m d o' = o3 m d := Function.update_self _ _ _
theorem V1_r (d : Dev nD) : V1 m d r' = m (rLoc d) := Function.update_of_ne (show r' ≠ o' by decide) _ _

omit [FloatOps F] in
theorem held_in (d : Dev nD) :
    (held (T d) S4 ((opIn (F := F)).result (V0 m d)) : sProp 𝕄)
      = iprop((aLoc d ↦{fullShare} m (aLoc d)) ∗ (xLoc d ↦{fullShare} x3 m d) ∗ (oLoc d ↦{fullShare} m (oLoc d)) ∗ rLoc d ↦{fullShare} m (rLoc d)) := by
  rw [held_S4,
    (opIn (F := F)).result_of_not_mem (V0 m d) (b := a') (show a' ∉ ({x'} : Finset (DevRef τ sig)) by decide),
    (opIn (F := F)).result_of_not_mem (V0 m d) (b := o') (show o' ∉ ({x'} : Finset (DevRef τ sig)) by decide),
    (opIn (F := F)).result_of_not_mem (V0 m d) (b := r') (show r' ∉ ({x'} : Finset (DevRef τ sig)) by decide),
    show (opIn (F := F)).result (V0 m d) x' = x3 m d from StableHlo.reshape_result _ _ _ _ _ _ _]
  rfl

theorem held_out (d : Dev nD) :
    (held (T d) S3 ((opOut (F := F)).result (V1 m d)) : sProp 𝕄)
      = iprop((aLoc d ↦{fullShare} m (aLoc d)) ∗ (oLoc d ↦{fullShare} o3 m d) ∗ rLoc d ↦{fullShare} r4 m d) := by
  rw [held_S3,
    (opOut (F := F)).result_of_not_mem (V1 m d) (b := a') (show a' ∉ ({r'} : Finset (DevRef τ sig)) by decide),
    (opOut (F := F)).result_of_not_mem (V1 m d) (b := o') (show o' ∉ ({r'} : Finset (DevRef τ sig)) by decide),
    show (opOut (F := F)).result (V1 m d) r' = r4 m d from
      (StableHlo.reshape_result _ _ _ _ _ _ _).trans (by rw [V1_o]; rfl),
    V1_a, V1_o]

theorem hIn : (opIn (F := F)).bufs ⊆ S4 := show ({a', x'} : Finset (DevRef τ sig)) ⊆ S4 by decide
theorem hOut : (opOut (F := F)).bufs ⊆ S3 := show ({o', r'} : Finset (DevRef τ sig)) ⊆ S3 by decide

theorem st0_eq (d : Dev nD) :
    (bigSep Finset.univ fun c : Fin ((K (F := F)).nCore 0) => (P m).st 0 d c) = iprop((xLoc d ↦{fullShare} x3 m d) ∗ (oLoc d ↦{fullShare} m (oLoc d))) := by
  show (bigSep (Finset.univ : Finset (Fin 2)) fun c => iprop((xLoc d ↦[coreSet c.val]{fullShare} x3 m d) ∗ (oLoc d ↦[coreSet c.val]{fullShare} m (oLoc d)))) = _
  rw [bigSep_sep', ← xPts_cores, ← oPts_cores]
theorem dn0_eq (d : Dev nD) :
    (bigSep Finset.univ fun c : Fin ((K (F := F)).nCore 0) => (P m).dn 0 d c) = iprop((xLoc d ↦{fullShare} x3 m d) ∗ (oLoc d ↦{fullShare} o3 m d)) := by
  show (bigSep (Finset.univ : Finset (Fin 2)) fun c => iprop((xLoc d ↦[coreSet c.val]{fullShare} x3 m d) ∗ (oLoc d ↦[coreSet c.val]{fullShare} o3 m d))) = _
  rw [bigSep_sep', ← xPts_cores, ← oPts_cores]

abbrev FIN (d : Dev nD) : sProp 𝕄 := iprop((aLoc d ↦{fullShare} m (aLoc d)) ∗ (rLoc d ↦{fullShare} r4 m d))

/-- The main program on the TensorCore: a reshape, the call, a reshape. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  iapply (wp_hlo_within 𝒱 (SparseCore.T d) none Set.univ (op := opIn) (S := S4) hIn (V := V0 m d)) $$ [Hb Hheld]
  · isplitl [Hb]; · iexact Hb
    iexact Hheld
  iintro ⟨Hb, Hheld⟩
  ihave Hh := (Entails.of_eq (held_in (F := F) m d)) $$ Hheld
  icases Hh with ⟨Ha, Hx, Ho, Hr⟩
  rw [wp_ret]; imodintro
  iapply ((K (F := F)).wp_run (D (F := F)) 𝒱 (EH := EH) (P := P m) κ d 0) $$ [Hst Hx Ho Hb Ha Hr]
  isplitr; · iexact Hctx
  isplitl [Hst]; · iexact Hst
  isplitl [Hx Ho]
  · rw [st0_eq]
    isplitl [Hx]; · iexact Hx
    iexact Ho
  iintro ⟨Hst, Hdn⟩
  ihave Hdn' := (Entails.of_eq (dn0_eq m d)) $$ Hdn
  icases Hdn' with ⟨-, Ho⟩
  iapply (wp_hlo_within 𝒱 (SparseCore.T d) none Set.univ (op := opOut) (S := S3) hOut (V := V1 m d)) $$ [Hb Ha Ho Hr]
  · isplitl [Hb]; · iexact Hb
    rw [held_S3, V1_a, V1_o, V1_r]
    isplitl [Ha]; · iexact Ha
    isplitl [Ho]; · iexact Ho
    iexact Hr
  iintro ⟨Hb, Hheld⟩
  ihave Hh := (Entails.of_eq (held_out (F := F) m d)) $$ Hheld
  icases Hh with ⟨Ha, -, Hr⟩
  rw [wp_ret]; imodintro; imodintro
  isplitl [Hst]; · iexact Hst
  isplitl [Ha]; · iexact Ha
  iexact Hr

def fq (d : Dev nD) (s' : Phys nD τ sig (Elt F)) : Prop := s'.mem.mem (rLoc d) = r4 m d ∧ s'.mem.mem (aLoc d) = m (aLoc d)

theorem hfin (d : Dev nD) (s' : Phys nD τ sig (Elt F)) : iprop(FIN m d ∗ SI s') ⊢ (⌜fq m d s'⌝ : sProp 𝕄) := by
  iintro ⟨⟨Ha, Hr⟩, HSI⟩
  ihave H := (persistent_entails_right (SI_pointsTo_agree (st := s') (ℓ := rLoc d) (I := Finset.univ) (q := fullShare) (f := r4 m d))) $$ [HSI Hr]
  · isplitl [HSI] <;> iassumption
  icases H with ⟨%h1, HSI, -⟩
  ihave H := (SI_pointsTo_agree (st := s') (ℓ := aLoc d) (I := Finset.univ) (q := fullShare) (f := m (aLoc d))) $$ [HSI Ha]
  · isplitl [HSI] <;> iassumption
  icases H with %h2
  ipureintro; exact ⟨funext fun i => h1 i (Finset.mem_univ i), funext fun i => h2 i (Finset.mem_univ i)⟩

/-- Every weakly fair execution ends with the result at the rule on the argument and the argument as it was. -/
theorem run_main [∀ e, Nonempty (Elt F e)] :
    θ_run (Cert.KernelIdeal.defs (F := F)) (Cert.KernelIdeal.threads (F := F)) ⟨m, fun _ => 0, ρ⟩
      (fun r => ∀ c : Dev nD, r.2.mem (rLoc c) = r4 m c ∧ r.2.mem (aLoc c) = m (aLoc c)) :=
  SparseCore.Cfg.θ_run_sc (K := K (F := F)) (D := D (F := F)) (𝒱 := 𝒱) (EH := EH) (P := P m) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m)
    (fun r => ∀ c : Dev nD, r.2.mem (rLoc c) = r4 m c ∧ r.2.mem (aLoc c) = m (aLoc c)) (fun _ h => h)

end Cert.KernelIdeal.Hand

end
-- ==== Proof.lean ====
import proofs.«204259_g20779051778567_cont_8to1_992_21_alg».proof.Defs
import proofs.«204259_g20779051778567_cont_8to1_992_21_alg».proof.Proof.Gen.Kernel
import proofs.«204259_g20779051778567_cont_8to1_992_21_alg».proof.Proof.Gen.KernelIdeal
import proofs.«204259_g20779051778567_cont_8to1_992_21_alg».proof.Proof.Gen.ReferenceIdeal
import proofs.«204259_g20779051778567_cont_8to1_992_21_alg».proof.Proof.Gen.Pre_finite_inputs
import proofs.«204259_g20779051778567_cont_8to1_992_21_alg».proof.Proof.RefValue
import proofs.«204259_g20779051778567_cont_8to1_992_21_alg».proof.Proof.KernelIdealHand.Launch

noncomputable section

namespace Cert.Proof

open Idealize.ShloMosaic Idealize.SL.Sem

/-- The kernel's result with batch and channel apart again is the rule on the four-axis argument. -/
theorem r4_eq (m : (ℓ : Loc Cert.KernelIdeal.nD Cert.KernelIdeal.τ Cert.KernelIdeal.sig) → Buf (Elt Ideal) ℓ) (c : Dev Cert.KernelIdeal.nD) :
    Cert.KernelIdeal.Hand.r4 (F := Ideal) m c = Cert.Spec.outFn (F := Ideal) (m (Cert.KernelIdeal.Hand.aLoc c)) := by
  unfold Cert.KernelIdeal.Hand.r4 Cert.KernelIdeal.Hand.o3 Cert.KernelIdeal.Hand.x3 Cert.Spec.outFn; rfl

/-- The two kernel programs are one text, so one run, stated for every float instance, serves both. -/
theorem claim : Cert.Claim := ⟨Cert.Kernel.Gen.facts, Cert.KernelIdeal.Gen.facts, Cert.ReferenceIdeal.Gen.facts, Cert.Pre_finite_inputs.Gen.facts,
  fun m ρ _ => (θ_run Cert.Kernel.defs _ _).mono (fun _ h c => (h c).2) (Cert.KernelIdeal.Hand.run_main (F := Bits) m ρ),
  fun m ρ _ => (θ_run Cert.KernelIdeal.defs _ _).mono (fun _ h c => (h c).2) (Cert.KernelIdeal.Hand.run_main (F := Ideal) m ρ),
  fun m ρ _ => (θ_run Cert.ReferenceIdeal.defs _ _).mono (fun _ h c => (h c).2) (Cert.ReferenceIdeal.Value.run (F := Ideal) m ρ),
  trivial,
  fun m ρ m' ρ' _ hagree => ⟨fun c => Cert.KernelIdeal.Hand.r4 (F := Ideal) m c,
    (θ_run Cert.KernelIdeal.defs _ _).mono (fun _ h c => h c) (Cert.KernelIdeal.Hand.run_main (F := Ideal) m ρ),
    (θ_run Cert.ReferenceIdeal.defs _ _).mono (fun _ h c => ⟨by
        rw [(h c).1, Cert.ReferenceIdeal.Read.val_main_v7_eq, Cert.RefValue.ref_value, hagree c]
        exact (r4_eq m c).symm, (h c).2⟩)
      (Cert.ReferenceIdeal.Value.run (F := Ideal) m' ρ')⟩⟩

end Cert.Proof

end
